-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3200000 : Shape := ⟨1, ![3200000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg10 : FVec F S32x16 .f32) (main_arg11 : FVec F S16 .f32) (main_v33 : IVec S_ 1) : IVec S_ 1 :=
  let main_v34 : FVec F S32x16 .f32 := Host.absf main_arg10
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg11
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg7 : FVec F S32 .f32) (main_arg8 : FVec F S32x32 .f32) (main_arg9 : FVec F S32 .f32) (main_arg10 : FVec F S32x16 .f32) (main_arg11 : FVec F S16 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg7
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg8
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg9
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg10 main_arg11 main_v33

def fn {F : FTy → Type} [FloatOps F] (main_arg0 : FVec F S100000x128 .f32) (main_arg1 : IVec S3200000 32) (main_arg2 : IVec S3200000 32) (main_arg3 : IVec S100000 32) (main_arg4 : FVec F S128x32 .f32) (main_arg5 : FVec F S32 .f32) (main_arg6 : FVec F S32x32 .f32) (main_arg7 : FVec F S32 .f32) (main_arg8 : FVec F S32x32 .f32) (main_arg9 : FVec F S32 .f32) (main_arg10 : FVec F S32x16 .f32) (main_arg11 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg4
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg5
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg6
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg7 main_arg8 main_arg9 main_arg10 main_arg11 main_v13 main_v16
-- ==== Kernel.lean ====
abbrev S100000x128 : Shape := ⟨2, ![100000, 128]⟩
abbrev S3200000 : Shape := ⟨1, ![3200000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S_ : Shape := ⟨0, ![]⟩
abbrev S3200000x1 : Shape := ⟨2, ![3200000, 1]⟩
abbrev S100000x1 : Shape := ⟨2, ![100000, 1]⟩
abbrev S100000x32 : Shape := ⟨2, ![100000, 32]⟩
abbrev S10000x128 : Shape := ⟨2, ![10000, 128]⟩
abbrev S10000x1 : Shape := ⟨2, ![10000, 1]⟩
abbrev S10000x32 : Shape := ⟨2, ![10000, 32]⟩
abbrev S3200000x32 : Shape := ⟨2, ![3200000, 32]⟩
abbrev S1x32 : Shape := ⟨2, ![1, 32]⟩
abbrev S1x16 : Shape := ⟨2, ![1, 16]⟩
abbrev S64x16 : Shape := ⟨2, ![64, 16]⟩
abbrev S32x64 : Shape := ⟨2, ![32, 64]⟩
abbrev S1x64 : Shape := ⟨2, ![1, 64]⟩
abbrev S10000x64 : Shape := ⟨2, ![10000, 64]⟩
abbrev S32x10000 : Shape := ⟨2, ![32, 10000]⟩
abbrev S1x10000 : Shape := ⟨2, ![1, 10000]⟩
abbrev S16x32 : Shape := ⟨2, ![16, 32]⟩
abbrev S16x64 : Shape := ⟨2, ![16, 64]⟩
abbrev S16x1 : Shape := ⟨2, ![16, 1]⟩

abbrev nBuf : Space → Nat
  | .hbm => 89
  | .vmem => 51
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S100000, .i32⟩
  | .hbm, ⟨4, _⟩ => ⟨S128x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x16, .f32⟩
  | .hbm, ⟨11, _⟩ => ⟨S16, .f32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S3200000x1, .i32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x32, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000x32, .f32⟩
  | .hbm, ⟨43, _⟩ => ⟨S_, .f32⟩
  | .hbm, ⟨44, _⟩ => ⟨S100000x32, .f32⟩
  | .hbm, ⟨45, _⟩ => ⟨S3200000x1, .i32⟩
  | .hbm, ⟨46, _⟩ => ⟨S100000x32, .f32⟩
  | .hbm, ⟨47, _⟩ => ⟨S100000x1, .f32⟩
  | .hbm, ⟨48, _⟩ => ⟨S1x32, .f32⟩
  | .hbm, ⟨49, _⟩ => ⟨S100000x32, .f32⟩
  | .hbm, ⟨50, _⟩ => ⟨S100000x1, .f32⟩
  | .hbm, ⟨51, _⟩ => ⟨S100000x32, .f32⟩
  | .hbm, ⟨52, _⟩ => ⟨S_, .i32⟩
  | .hbm, ⟨53, _⟩ => ⟨S3200000, .i32⟩
  | .hbm, ⟨54, _⟩ => ⟨S3200000, .i1⟩
  | .hbm, ⟨55, _⟩ => ⟨S_, .i32⟩
  | .hbm, ⟨56, _⟩ => ⟨S3200000, .i32⟩
  | .hbm, ⟨57, _⟩ => ⟨S3200000, .i32⟩
  | .hbm, ⟨58, _⟩ => ⟨S3200000, .i32⟩
  | .hbm, ⟨59, _⟩ => ⟨S3200000x1, .i32⟩
  | .hbm, ⟨60, _⟩ => ⟨S3200000x32, .f32⟩
  | .hbm, ⟨61, _⟩ => ⟨S_, .f32⟩
  | .hbm, ⟨62, _⟩ => ⟨S100000x32, .f32⟩
  | .hbm, ⟨63, _⟩ => ⟨S3200000x1, .i32⟩
  | .hbm, ⟨64, _⟩ => ⟨S100000x32, .f32⟩
  | .hbm, ⟨65, _⟩ => ⟨S100000x1, .f32⟩
  | .hbm, ⟨66, _⟩ => ⟨S1x32, .f32⟩
  | .hbm, ⟨67, _⟩ => ⟨S100000x32, .f32⟩
  | .hbm, ⟨68, _⟩ => ⟨S100000x1, .f32⟩
  | .hbm, ⟨69, _⟩ => ⟨S100000x32, .f32⟩
  | .hbm, ⟨70, _⟩ => ⟨S_, .i32⟩
  | .hbm, ⟨71, _⟩ => ⟨S3200000, .i32⟩
  | .hbm, ⟨72, _⟩ => ⟨S3200000, .i1⟩
  | .hbm, ⟨73, _⟩ => ⟨S_, .i32⟩
  | .hbm, ⟨74, _⟩ => ⟨S3200000, .i32⟩
  | .hbm, ⟨75, _⟩ => ⟨S3200000, .i32⟩
  | .hbm, ⟨76, _⟩ => ⟨S3200000, .i32⟩
  | .hbm, ⟨77, _⟩ => ⟨S3200000x1, .i32⟩
  | .hbm, ⟨78, _⟩ => ⟨S3200000x32, .f32⟩
  | .hbm, ⟨79, _⟩ => ⟨S_, .f32⟩
  | .hbm, ⟨80, _⟩ => ⟨S100000x32, .f32⟩
  | .hbm, ⟨81, _⟩ => ⟨S3200000x1, .i32⟩
  | .hbm, ⟨82, _⟩ => ⟨S100000x32, .f32⟩
  | .hbm, ⟨83, _⟩ => ⟨S100000x1, .f32⟩
  | .hbm, ⟨84, _⟩ => ⟨S1x32, .f32⟩
  | .hbm, ⟨85, _⟩ => ⟨S100000x32, .f32⟩
  | .hbm, ⟨86, _⟩ => ⟨S100000x1, .i32⟩
  | .hbm, ⟨87, _⟩ => ⟨S1x16, .f32⟩
  | .hbm, ⟨88, _⟩ => ⟨S64x16, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S128x32, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S10000x32, .f32⟩
  | .local _ .vmem, ⟨9, _⟩ => ⟨S10000x1, .f32⟩
  | .local _ .vmem, ⟨10, _⟩ => ⟨S10000x1, .f32⟩
  | .local _ .vmem, ⟨11, _⟩ => ⟨S1x32, .f32⟩
  | .local _ .vmem, ⟨12, _⟩ => ⟨S10000x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x1, .f32⟩
  | .local _ .vmem, ⟨17, _⟩ => ⟨S10000x1, .f32⟩
  | .local _ .vmem, ⟨18, _⟩ => ⟨S32x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S10000x1, .f32⟩
  | .local _ .vmem, ⟨24, _⟩ => ⟨S10000x1, .f32⟩
  | .local _ .vmem, ⟨25, _⟩ => ⟨S1x32, .f32⟩
  | .local _ .vmem, ⟨26, _⟩ => ⟨S10000x32, .f32⟩
  | .local _ .vmem, ⟨27, _⟩ => ⟨S10000x32, .f32⟩
  | .local _ .vmem, ⟨28, _⟩ => ⟨S10000x32, .f32⟩
  | .local _ .vmem, ⟨29, _⟩ => ⟨S10000x32, .f32⟩
  | .local _ .vmem, ⟨30, _⟩ => ⟨S10000x1, .f32⟩
  | .local _ .vmem, ⟨31, _⟩ => ⟨S10000x1, .f32⟩
  | .local _ .vmem, ⟨32, _⟩ => ⟨S32x32, .f32⟩
  | .local _ .vmem, ⟨33, _⟩ => ⟨S10000x32, .f32⟩
  | .local _ .vmem, ⟨34, _⟩ => ⟨S10000x32, .f32⟩
  | .local _ .vmem, ⟨35, _⟩ => ⟨S10000x32, .f32⟩
  | .local _ .vmem, ⟨36, _⟩ => ⟨S10000x32, .f32⟩
  | .local _ .vmem, ⟨37, _⟩ => ⟨S10000x1, .f32⟩
  | .local _ .vmem, ⟨38, _⟩ => ⟨S10000x1, .f32⟩
  | .local _ .vmem, ⟨39, _⟩ => ⟨S1x32, .f32⟩
  | .local _ .vmem, ⟨40, _⟩ => ⟨S10000x32, .f32⟩
  | .local _ .vmem, ⟨41, _⟩ => ⟨S10000x32, .f32⟩
  | .local _ .vmem, ⟨42, _⟩ => ⟨S10000x32, .f32⟩
  | .local _ .vmem, ⟨43, _⟩ => ⟨S10000x32, .f32⟩
  | .local _ .vmem, ⟨44, _⟩ => ⟨S10000x1, .i32⟩
  | .local _ .vmem, ⟨45, _⟩ => ⟨S10000x1, .i32⟩
  | .local _ .vmem, ⟨46, _⟩ => ⟨S32x16, .f32⟩
  | .local _ .vmem, ⟨47, _⟩ => ⟨S1x16, .f32⟩
  | .local _ .vmem, ⟨48, _⟩ => ⟨S64x16, .f32⟩
  | .local _ .vmem, ⟨49, _⟩ => ⟨S32x64, .f32⟩
  | .local _ .vmem, ⟨50, _⟩ => ⟨S1x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v4 : Ref sig .tc := ⟨.hbm, 21, rfl⟩
abbrev main_cst_2 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_9 : Ref sig .tc := ⟨.hbm, 70, rfl⟩
abbrev main_v43 : Ref sig .tc := ⟨.hbm, 71, rfl⟩
abbrev main_v44 : Ref sig .tc := ⟨.hbm, 72, rfl⟩
abbrev main_c_10 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_11 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_scratch0 : Ref sig .tc := ⟨.vmem, 49, rfl⟩
abbrev cc6_scratch1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v28 : BitVec 1 := Scalar.cmpi .eq arg0 c9_i32
  let v29 : BitVec 32 := Scalar.extui v28
  let c0_i32_14 : BitVec 32 := 0#32
  let v30 : BitVec 1 := Scalar.cmpi .ne v29 c0_i32_14
  v30

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S32x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x16 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x16 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S10000x1_S10000x32 : S10000x1.Broadcasts S10000x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  shapeCasts_S16_S1x16 : S16.ShapeCasts S1x16
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  iota_S10000x64_d1_w32 : S10000x64.Iotas .tc 32 [1]
  broadcasts_S10000x1_S10000x64 : S10000x1.Broadcasts S10000x64
  natLt_1_32 : 1 < 32
  transposes_S10000x32_p1_0_S32x10000 : S10000x32.Transposes [1, 0] S32x10000
  broadcasts_S1x64_S32x64 : S1x64.Broadcasts S32x64
  inb_S32x16_S32x16_0_0 : ∀ a, (![0, 0] : Fin 2 → Nat) a + S32x16.size a ≤ S32x16.size a
  h_S32x16 : 0 < S32x16.numel
  transposes_S32x16_p1_0_S16x32 : S32x16.Transposes [1, 0] S16x32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  transposes_S1x16_p1_0_S16x1 : S1x16.Transposes [1, 0] S16x1
  broadcasts_S16x1_S16x64 : S16x1.Broadcasts S16x64
  transposes_S16x64_p1_0_S64x16 : S16x64.Transposes [1, 0] S64x16
  inb_S64x16_S64x16_0_0 : ∀ a, (![0, 0] : Fin 2 → Nat) a + S64x16.size a ≤ S64x16.size a
  h_S64x16 : 0 < S64x16.numel
  scatter_S100000_S3200000x1_S3200000_n_0_0_1_wf : ScatterDims.WF S100000 S3200000x1 S3200000 [] [0] [0] 1
  dot_S10000x128_S128x32_S10000x32_1_0_0_1_n_n_wf : DotDims.WF S10000x128 S128x32 S10000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S10000x32_S32x32_S10000x32_1_0_0_1_n_n_wf : DotDims.WF S10000x32 S32x32 S10000x32 [1] [0] [0] [1] [] []
  dot_S32x10000_S10000x64_S32x64_1_0_0_1_n_n_wf : DotDims.WF S32x10000 S10000x64 S32x64 [1] [0] [0] [1] [] []
  dot_S1x10000_S10000x64_S1x64_1_0_0_1_n_n_wf : DotDims.WF S1x10000 S10000x64 S1x64 [1] [0] [0] [1] [] []
  dot_S16x32_S32x64_S16x64_1_0_0_1_n_n_wf : DotDims.WF S16x32 S32x64 S16x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S100000x32.size a
  hwx0_3 : ∀ i : grid0.Coords, EltTy.bits .f32 = 32 ∨ (Rect.block (s := S100000x32) S10000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x32.size a ≤ S100000x32.size a
  hwx2_3 : ∀ i : grid2.Coords, EltTy.bits .f32 = 32 ∨ (Rect.block (s := S100000x32) S10000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x32.size a ≤ S100000x32.size a
  hwx3_3 : ∀ i : grid3.Coords, EltTy.bits .f32 = 32 ∨ (Rect.block (s := S100000x32) S10000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .f32 = 32 ∨ (Rect.block (s := S100000x1) S10000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x32.size a ≤ S32x32.size a
  hwx4_2 : ∀ i : grid4.Coords, EltTy.bits .f32 = 32 ∨ (Rect.block (s := S32x32) S32x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x32.size a ≤ S100000x32.size a
  hwx4_3 : ∀ i : grid4.Coords, EltTy.bits .f32 = 32 ∨ (Rect.block (s := S100000x32) S10000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S100000x32.size a
  hwx5_0 : ∀ i : grid5.Coords, EltTy.bits .f32 = 32 ∨ (Rect.block (s := S100000x32) S10000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S100000x1.size a
  hwx5_1 : ∀ i : grid5.Coords, EltTy.bits .f32 = 32 ∨ (Rect.block (s := S100000x1) S10000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x32.size a ≤ S100000x32.size a
  hwx5_3 : ∀ i : grid5.Coords, EltTy.bits .f32 = 32 ∨ (Rect.block (s := S100000x32) S10000x32.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x32.size a ≤ S100000x32.size a
  hwx6_0 : ∀ i : grid6.Coords, EltTy.bits .f32 = 32 ∨ (Rect.block (s := S100000x32) S10000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x1.size a ≤ S100000x1.size a
  hwx6_1 : ∀ i : grid6.Coords, EltTy.bits .i32 = 32 ∨ (Rect.block (s := S100000x1) S10000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S32x16.size a ≤ S32x16.size a
  hwx6_2 : ∀ i : grid6.Coords, EltTy.bits .f32 = 32 ∨ (Rect.block (s := S32x16) S32x16.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x16.size a ≤ S1x16.size a
  hwx6_3 : ∀ i : grid6.Coords, EltTy.bits .f32 = 32 ∨ (Rect.block (s := S1x16) S1x16.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x16.size a ≤ S64x16.size a
  hwx6_4 : ∀ i : grid6.Coords, EltTy.bits .f32 = 32 ∨ (Rect.block (s := S64x16) S64x16.size (cc6_transform_4 i) (hinb6_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S32x10000_S10000x64_S32x64_1_0_0_1_n_n : DotDims S32x10000 S10000x64 S32x64 where
  lhsContracting := [1]
  rhsContracting := [0]
  lhsNonContracting := [0]
  rhsNonContracting := [1]
  lhsBatch := []
  rhsBatch := []
  wf := dot_S32x10000_S10000x64_S32x64_1_0_0_1_n_n_wf
def dot_S1x10000_S10000x64_S1x64_1_0_0_1_n_n : DotDims S1x10000 S10000x64 S1x64 where
  lhsContracting := [1]
  rhsContracting := [0]
  lhsNonContracting := [0]
  rhsNonContracting := [1]
  lhsBatch := []
  rhsBatch := []
  wf := dot_S1x10000_S10000x64_S1x64_1_0_0_1_n_n_wf
def dot_S16x32_S32x64_S16x64_1_0_0_1_n_n : DotDims S16x32 S32x64 S16x64 where
  lhsContracting := [1]
  rhsContracting := [0]
  lhsNonContracting := [0]
  rhsNonContracting := [1]
  lhsBatch := []
  rhsBatch := []
  wf := dot_S16x32_S32x64_S16x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S10000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v37) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S10000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v40) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S32x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v42) S10000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v52) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v53) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v54) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v55) S10000x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v55) S10000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v56) S10000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg10) S32x16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v57) S1x16.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v58) S64x16.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun _ => false | 4 => fun i => !(k6_cond2 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S3200000 : Shape := ⟨1, ![3200000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S_ : Shape := ⟨0, ![]⟩
abbrev S3200000x1 : Shape := ⟨2, ![3200000, 1]⟩
abbrev S100000x1 : Shape := ⟨2, ![100000, 1]⟩
abbrev S100000x32 : Shape := ⟨2, ![100000, 32]⟩
abbrev S3200000x32 : Shape := ⟨2, ![3200000, 32]⟩
abbrev S1x32 : Shape := ⟨2, ![1, 32]⟩
abbrev S64x32 : Shape := ⟨2, ![64, 32]⟩
abbrev S64 : Shape := ⟨1, ![64]⟩
abbrev S64x1 : Shape := ⟨2, ![64, 1]⟩
abbrev S64x16 : Shape := ⟨2, ![64, 16]⟩
abbrev S1x16 : Shape := ⟨2, ![1, 16]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S3200000, .i32⟩
  | 2 => ⟨S3200000, .i32⟩
  | 3 => ⟨S100000, .i32⟩
  | 4 => ⟨S128x32, .f32⟩
  | 5 => ⟨S32, .f32⟩
  | 6 => ⟨S32x32, .f32⟩
  | 7 => ⟨S32, .f32⟩
  | 8 => ⟨S32x32, .f32⟩
  | 9 => ⟨S32, .f32⟩
  | 10 => ⟨S32x16, .f32⟩
  | 11 => ⟨S16, .f32⟩
  | 12 => ⟨S_, .f32⟩
  | 13 => ⟨S3200000, .f32⟩
  | 14 => ⟨S_, .f32⟩
  | 15 => ⟨S100000, .f32⟩
  | 16 => ⟨S3200000x1, .i32⟩
  | 17 => ⟨S100000, .f32⟩
  | 18 => ⟨S_, .f32⟩
  | 19 => ⟨S_, .f32⟩
  | 20 => ⟨S100000, .f32⟩
  | 21 => ⟨S100000, .f32⟩
  | 22 => ⟨S_, .f32⟩
  | 23 => ⟨S100000, .f32⟩
  | 24 => ⟨S3200000x1, .i32⟩
  | 25 => ⟨S100000, .f32⟩
  | 26 => ⟨S_, .f32⟩
  | 27 => ⟨S_, .f32⟩
  | 28 => ⟨S100000, .f32⟩
  | 29 => ⟨S100000, .f32⟩
  | 30 => ⟨S100000, .f32⟩
  | 31 => ⟨S100000, .f32⟩
  | 32 => ⟨S100000x1, .f32⟩
  | 33 => ⟨S100000x128, .f32⟩
  | 34 => ⟨S100000x128, .f32⟩
  | 35 => ⟨S100000x32, .f32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S3200000x32, .f32⟩
  | 45 => ⟨S_, .f32⟩
  | 46 => ⟨S100000x32, .f32⟩
  | 47 => ⟨S3200000x1, .i32⟩
  | 48 => ⟨S100000x32, .f32⟩
  | 49 => ⟨S100000x1, .f32⟩
  | 50 => ⟨S100000x32, .f32⟩
  | 51 => ⟨S100000x32, .f32⟩
  | 52 => ⟨S1x32, .f32⟩
  | 53 => ⟨S100000x32, .f32⟩
  | 54 => ⟨S100000x32, .f32⟩
  | 55 => ⟨S_, .f32⟩
  | 56 => ⟨S100000x32, .f32⟩
  | 57 => ⟨S100000x32, .f32⟩
  | 58 => ⟨S100000x1, .f32⟩
  | 59 => ⟨S100000x32, .f32⟩
  | 60 => ⟨S100000x32, .f32⟩
  | 61 => ⟨S100000x32, .f32⟩
  | 62 => ⟨S_, .i32⟩
  | 63 => ⟨S3200000, .i32⟩
  | 64 => ⟨S3200000, .i1⟩
  | 65 => ⟨S_, .i32⟩
  | 66 => ⟨S3200000, .i32⟩
  | 67 => ⟨S3200000, .i32⟩
  | 68 => ⟨S3200000, .i32⟩
  | 69 => ⟨S3200000x1, .i32⟩
  | 70 => ⟨S3200000x32, .f32⟩
  | 71 => ⟨S_, .f32⟩
  | 72 => ⟨S100000x32, .f32⟩
  | 73 => ⟨S3200000x1, .i32⟩
  | 74 => ⟨S100000x32, .f32⟩
  | 75 => ⟨S100000x1, .f32⟩
  | 76 => ⟨S100000x32, .f32⟩
  | 77 => ⟨S100000x32, .f32⟩
  | 78 => ⟨S1x32, .f32⟩
  | 79 => ⟨S100000x32, .f32⟩
  | 80 => ⟨S100000x32, .f32⟩
  | 81 => ⟨S_, .f32⟩
  | 82 => ⟨S100000x32, .f32⟩
  | 83 => ⟨S100000x32, .f32⟩
  | 84 => ⟨S100000x1, .f32⟩
  | 85 => ⟨S100000x32, .f32⟩
  | 86 => ⟨S100000x32, .f32⟩
  | 87 => ⟨S100000x32, .f32⟩
  | 88 => ⟨S_, .i32⟩
  | 89 => ⟨S3200000, .i32⟩
  | 90 => ⟨S3200000, .i1⟩
  | 91 => ⟨S_, .i32⟩
  | 92 => ⟨S3200000, .i32⟩
  | 93 => ⟨S3200000, .i32⟩
  | 94 => ⟨S3200000, .i32⟩
  | 95 => ⟨S3200000x1, .i32⟩
  | 96 => ⟨S3200000x32, .f32⟩
  | 97 => ⟨S_, .f32⟩
  | 98 => ⟨S100000x32, .f32⟩
  | 99 => ⟨S3200000x1, .i32⟩
  | 100 => ⟨S100000x32, .f32⟩
  | 101 => ⟨S100000x1, .f32⟩
  | 102 => ⟨S100000x32, .f32⟩
  | 103 => ⟨S100000x32, .f32⟩
  | 104 => ⟨S1x32, .f32⟩
  | 105 => ⟨S100000x32, .f32⟩
  | 106 => ⟨S100000x32, .f32⟩
  | 107 => ⟨S_, .f32⟩
  | 108 => ⟨S100000x32, .f32⟩
  | 109 => ⟨S100000x32, .f32⟩
  | 110 => ⟨S_, .f32⟩
  | 111 => ⟨S64x32, .f32⟩
  | 112 => ⟨S100000x1, .i32⟩
  | 113 => ⟨S64x32, .f32⟩
  | 114 => ⟨S_, .f32⟩
  | 115 => ⟨S100000, .f32⟩
  | 116 => ⟨S_, .f32⟩
  | 117 => ⟨S64, .f32⟩
  | 118 => ⟨S100000x1, .i32⟩
  | 119 => ⟨S64, .f32⟩
  | 120 => ⟨S_, .f32⟩
  | 121 => ⟨S_, .f32⟩
  | 122 => ⟨S64, .f32⟩
  | 123 => ⟨S64, .f32⟩
  | 124 => ⟨S64x1, .f32⟩
  | 125 => ⟨S64x32, .f32⟩
  | 126 => ⟨S64x32, .f32⟩
  | 127 => ⟨S64x16, .f32⟩
  | _ => ⟨S100000x128, .f32⟩

abbrev hbmTy0_1 (i : Nat) : BufTy := match i % 128 with
  | 0 => ⟨S1x16, .f32⟩
  | 1 => ⟨S64x16, .f32⟩
  | 2 => ⟨S64x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v4 : Ref sig .tc := ⟨.hbm, 21, rfl⟩
abbrev main_cst_2 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call2_cst : Ref sig .tc := ⟨.hbm, 55, rfl⟩
abbrev main_call2_v0 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_6 : Ref sig .tc := ⟨.hbm, 62, rfl⟩
abbrev main_v36 : Ref sig .tc := ⟨.hbm, 63, rfl⟩
abbrev main_v37 : Ref sig .tc := ⟨.hbm, 64, rfl⟩
abbrev main_c_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call3_cst : Ref sig .tc := ⟨.hbm, 81, rfl⟩
abbrev main_call3_v0 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_9 : Ref sig .tc := ⟨.hbm, 88, rfl⟩
abbrev main_v57 : Ref sig .tc := ⟨.hbm, 89, rfl⟩
abbrev main_v58 : Ref sig .tc := ⟨.hbm, 90, rfl⟩
abbrev main_c_10 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_call4_cst : Ref sig .tc := ⟨.hbm, 107, rfl⟩
abbrev main_call4_v0 : Ref sig .tc := ⟨.hbm, 108, rfl⟩
abbrev main_v73 : Ref sig .tc := ⟨.hbm, 109, rfl⟩
abbrev main_cst_12 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_13 : Ref sig .tc := ⟨.hbm, 114, rfl⟩
abbrev main_v77 : Ref sig .tc := ⟨.hbm, 115, rfl⟩
abbrev main_cst_14 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_15 : Ref sig .tc := ⟨.hbm, 120, rfl⟩
abbrev main_call5_v0 : Ref sig .tc := ⟨.hbm, 121, rfl⟩
abbrev main_call5_v1 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S64x32 : S_.BroadcastsInDim S64x32 (![] : Fin 0 → Fin S64x32.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  scatter_S100000_S3200000x1_S3200000_n_0_0_1_wf : ScatterDims.WF S100000 S3200000x1 S3200000 [] [0] [0] 1
  dot_S100000x128_S128x32_S100000x32_1_0_0_1_n_n_wf : DotDims.WF S100000x128 S128x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x32_S100000x32_1_0_0_1_n_n_wf : DotDims.WF S100000x32 S32x32 S100000x32 [1] [0] [0] [1] [] []
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1
  dot_S64x32_S32x16_S64x16_1_0_0_1_n_n_wf : DotDims.WF S64x32 S32x16 S64x16 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x32_S32x16_S64x16_1_0_0_1_n_n : DotDims S64x32 S32x16 S64x16 where
  lhsContracting := [1]
  rhsContracting := [0]
  lhsNonContracting := [0]
  rhsNonContracting := [1]
  lhsBatch := []
  rhsBatch := []
  wf := dot_S64x32_S32x16_S64x16_1_0_0_1_n_n_wf

class Facts : Prop extends Facts₀ where

variable [Facts]
-- ==== Proof.K.T0.lean ====
import proofs.«424855_j19189913879214_2_alg».proof.Proof.Gen.Kernel.Launch
import proofs.«424855_j19189913879214_2_alg».proof.Proof.Gen.Kernel.Skeleton
import proofs.«424855_j19189913879214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x128 := Rect.unit (s := S10000x128) ![0, 0] S10000x128.size inb_S10000x128_S10000x128_0_0
abbrev r0_1 : Rect S10000x1 := Rect.unit (s := S10000x1) ![0, 0] S10000x1.size inb_S10000x1_S10000x1_0_0
abbrev r0_2 : Rect S128x32 := Rect.unit (s := S128x32) ![0, 0] S128x32.size inb_S128x32_S128x32_0_0
abbrev r0_3 : Rect S10000x32 := Rect.unit (s := S10000x32) ![0, 0] S10000x32.size inb_S10000x32_S10000x32_0_0

def out0_3 (x0 : Vec F S10000x128 .f32) (x1 : Vec F S10000x1 .f32) (x2 : Vec F S128x32 .f32) : Vec F S10000x32 .f32 :=
  View.canon [⟨r0_3, k0_pay1 (View.ld x0 r0_0) (View.ld x1 r0_1) (View.ld x2 r0_2)⟩]

/-- The body reads its three inputs whole and stores one payload over the whole output. -/
theorem sound_kernel0 (c : Dev nD) (E : Set ℕ) (i : grid0.Coords)
    (arg0 : Memref sig .tc .vmem S10000x128 .f32) (harg0 : arg0.IsWhole) (arg1 : Memref sig .tc .vmem S10000x1 .f32) (harg1 : arg1.IsWhole)
    (arg2 : Memref sig .tc .vmem S128x32 .f32) (harg2 : arg2.IsWhole) (arg3 : Memref sig .tc .vmem S10000x32 .f32) (harg3 : arg3.IsWhole)
    (x0 : Vec F S10000x128 .f32) (x1 : Vec F S10000x1 .f32) (x2 : Vec F S128x32 .f32) (x3 : Vec F S10000x32 .f32) (K : PUnit → sProp 𝕄) :
    iprop(owns c arg0 fullShare x0 ∗ owns c arg1 fullShare x1 ∗ owns c arg2 fullShare x2 ∗ owns c arg3 fullShare x3
        ∗ (iprop(owns c arg0 fullShare x0 ∗ owns c arg1 fullShare x1 ∗ owns c arg2 fullShare x2 ∗ owns c arg3 fullShare (out0_3 x0 x1 x2)) -∗ K ⟨⟩))
      ⊢ wp frame (wpE defs₀ Variants.none c none) E (cc0__transform_kernel i arg0 harg0 arg1 harg1 arg2 harg2 arg3 harg3) K := by
  simp only [cc0__transform_kernel_eq_skeleton]; unfold cc0__transform_kernel_skel owns
  iintro ⟨⟨%f0, %hf0, H0⟩, ⟨%f1, %hf1, H1⟩, ⟨%f2, %hf2, H2⟩, ⟨%f3, -, H3⟩, Hk⟩
  subst hf0 hf1 hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr; swap; · iexact H3
  ipureintro
  exact View.read_writes_eq_canon _ _ _ (View.cover_of_tiled _ S10000x32.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = out0_3 (iblk0 V c 0 t) (iblk0 V c 1 t) (iblk0 V c 2 t) := by dsimp only [dat0]

/-- The body's triple at a point's blocks, with `R` and `S` framed. -/
theorem sound_body0 (c : Dev nD) (t : Fin cfg0.N) (R S : sProp 𝕄) :
    iprop(R ∗ S ∗ (∃ d, owns c (st0_0 t) fullShare ((dat0 V c).before 0 t d)) ∗ (∃ d, owns c (st0_1 t) fullShare ((dat0 V c).before 1 t d))
        ∗ (∃ d, owns c (st0_2 t) fullShare ((dat0 V c).before 2 t d)) ∗ (∃ d, owns c (st0_3 t) fullShare ((dat0 V c).before 3 t d)))
      ⊢ wp frame (wpE defs₀ Variants.none c none) Set.univ (bodyAt0 t) fun _ =>
        iprop(R ∗ S ∗ owns c (st0_0 t) fullShare (iblk0 V c 0 t) ∗ owns c (st0_1 t) fullShare (iblk0 V c 1 t)
          ∗ owns c (st0_2 t) fullShare (iblk0 V c 2 t) ∗ owns c (st0_3 t) fullShare ((dat0 V c).after 3 t)) := by
  have hb : (∀ d, (dat0 V c).before 0 t d = iblk0 V c 0 t) ∧ (∀ d, (dat0 V c).before 1 t d = iblk0 V c 1 t)
      ∧ ∀ d, (dat0 V c).before 2 t d = iblk0 V c 2 t := by
    refine ⟨?_, ?_, ?_⟩ <;> exact (dat0 V c).before_in_eq_fetched _ rfl (fun _ => rfl) (fun _ _ _ => rfl) (fun _ => rfl) t
  simp only [hb, after0_3]
  iintro ⟨HR, HS, ⟨%d0, H0⟩, ⟨%d1, H1⟩, ⟨%d2, H2⟩, ⟨%d3, H3⟩⟩
  iapply sound_kernel0
  iframe H0 H1 H2 H3
  iintro H
  iframe

theorem body_obligation0 (c : Dev nD) : BodyObligation (dat0 (F := F) V c) (defs₀ (F := F)) Variants.none () Set.univ := fun t => by
  rw [bigSep_W0, bigSep_W0]
  exact sound_body0 V c t _ _

end Cert.Kernel.Fr
-- ==== Proof.K.F1.lean ====
import proofs.«424855_j19189913879214_2_alg».proof.Proof.Gen.Kernel.Launch
import proofs.«424855_j19189913879214_2_alg».proof.Proof.Gen.Kernel.Skeleton
import proofs.«424855_j19189913879214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x32 := Rect.unit (s := S10000x32) ![0, 0] S10000x32.size inb_S10000x32_S10000x32_0_0
abbrev r1_1 : Rect S10000x1 := Rect.unit (s := S10000x1) ![0, 0] S10000x1.size inb_S10000x1_S10000x1_0_0
abbrev r1_2 : Rect S1x32 := Rect.unit (s := S1x32) ![0, 0] S1x32.size inb_S1x32_S1x32_0_0

def out1_3 (x0 : Vec F S10000x32 .f32) (x1 : Vec F S10000x1 .f32) (x2 : Vec F S1x32 .f32) : Vec F S10000x32 .f32 :=
  View.canon [⟨r1_0, k1_pay1 (View.ld x0 r1_0) (View.ld x1 r1_1) (View.ld x2 r1_2)⟩]

/-- The body reads its three inputs whole and stores one payload over the whole output. -/
theorem sound_kernel1 (c : Dev nD) (E : Set ℕ) (i : grid1.Coords)
    (arg0 : Memref sig .tc .vmem S10000x32 .f32) (harg0 : arg0.IsWhole) (arg1 : Memref sig .tc .vmem S10000x1 .f32) (harg1 : arg1.IsWhole)
    (arg2 : Memref sig .tc .vmem S1x32 .f32) (harg2 : arg2.IsWhole) (arg3 : Memref sig .tc .vmem S10000x32 .f32) (harg3 : arg3.IsWhole)
    (x0 : Vec F S10000x32 .f32) (x1 : Vec F S10000x1 .f32) (x2 : Vec F S1x32 .f32) (x3 : Vec F S10000x32 .f32) (K : PUnit → sProp 𝕄) :
    iprop(owns c arg0 fullShare x0 ∗ owns c arg1 fullShare x1 ∗ owns c arg2 fullShare x2 ∗ owns c arg3 fullShare x3
        ∗ (iprop(owns c arg0 fullShare x0 ∗ owns c arg1 fullShare x1 ∗ owns c arg2 fullShare x2 ∗ owns c arg3 fullShare (out1_3 x0 x1 x2)) -∗ K ⟨⟩))
      ⊢ wp frame (wpE defs₀ Variants.none c none) E (cc1__finalize_kernel i arg0 harg0 arg1 harg1 arg2 harg2 arg3 harg3) K := by
  simp only [cc1__finalize_kernel_eq_skeleton]; unfold cc1__finalize_kernel_skel owns
  iintro ⟨⟨%f0, %hf0, H0⟩, ⟨%f1, %hf1, H1⟩, ⟨%f2, %hf2, H2⟩, ⟨%f3, -, H3⟩, Hk⟩
  subst hf0 hf1 hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr; swap; · iexact H3
  ipureintro
  exact View.read_writes_eq_canon _ _ _ (View.cover_of_tiled _ S10000x32.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

theorem after1_3 (c : Dev nD) (t : Fin cfg1.N) :
    (dat1 V c).after 3 t = out1_3 (iblk1 V c 0 t) (iblk1 V c 1 t) (iblk1 V c 2 t) := by dsimp only [dat1]

/-- The body's triple at a point's blocks, with `R` and `S` framed. -/
theorem sound_body1 (c : Dev nD) (t : Fin cfg1.N) (R S : sProp 𝕄) :
    iprop(R ∗ S ∗ (∃ d, owns c (st1_0 t) fullShare ((dat1 V c).before 0 t d)) ∗ (∃ d, owns c (st1_1 t) fullShare ((dat1 V c).before 1 t d))
        ∗ (∃ d, owns c (st1_2 t) fullShare ((dat1 V c).before 2 t d)) ∗ (∃ d, owns c (st1_3 t) fullShare ((dat1 V c).before 3 t d)))
      ⊢ wp frame (wpE defs₀ Variants.none c none) Set.univ (bodyAt1 t) fun _ =>
        iprop(R ∗ S ∗ owns c (st1_0 t) fullShare (iblk1 V c 0 t) ∗ owns c (st1_1 t) fullShare (iblk1 V c 1 t)
          ∗ owns c (st1_2 t) fullShare (iblk1 V c 2 t) ∗ owns c (st1_3 t) fullShare ((dat1 V c).after 3 t)) := by
  have hb : (∀ d, (dat1 V c).before 0 t d = iblk1 V c 0 t) ∧ (∀ d, (dat1 V c).before 1 t d = iblk1 V c 1 t)
      ∧ ∀ d, (dat1 V c).before 2 t d = iblk1 V c 2 t := by
    refine ⟨?_, ?_, ?_⟩ <;> exact (dat1 V c).before_in_eq_fetched _ rfl (fun _ => rfl) (fun _ _ _ => rfl) (fun _ => rfl) t
  simp only [hb, after1_3]
  iintro ⟨HR, HS, ⟨%d0, H0⟩, ⟨%d1, H1⟩, ⟨%d2, H2⟩, ⟨%d3, H3⟩⟩
  iapply sound_kernel1
  iframe H0 H1 H2 H3
  iintro H
  iframe

theorem body_obligation1 (c : Dev nD) : BodyObligation (dat1 (F := F) V c) (defs₀ (F := F)) Variants.none () Set.univ := fun t => by
  rw [bigSep_W1, bigSep_W1]
  exact sound_body1 V c t _ _

end Cert.Kernel.Fr
-- ==== Proof.K.T2.lean ====
import proofs.«424855_j19189913879214_2_alg».proof.Proof.Gen.Kernel.Launch
import proofs.«424855_j19189913879214_2_alg».proof.Proof.Gen.Kernel.Skeleton
import proofs.«424855_j19189913879214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S10000x32 := Rect.unit (s := S10000x32) ![0, 0] S10000x32.size inb_S10000x32_S10000x32_0_0
abbrev r2_1 : Rect S10000x1 := Rect.unit (s := S10000x1) ![0, 0] S10000x1.size inb_S10000x1_S10000x1_0_0
abbrev r2_2 : Rect S32x32 := Rect.unit (s := S32x32) ![0, 0] S32x32.size inb_S32x32_S32x32_0_0
abbrev r2_3 : Rect S10000x32 := Rect.unit (s := S10000x32) ![0, 0] S10000x32.size inb_S10000x32_S10000x32_0_0

def out2_3 (x0 : Vec F S10000x32 .f32) (x1 : Vec F S10000x1 .f32) (x2 : Vec F S32x32 .f32) : Vec F S10000x32 .f32 :=
  View.canon [⟨r2_3, k2_pay1 (View.ld x0 r2_0) (View.ld x1 r2_1) (View.ld x2 r2_2)⟩]

/-- The body reads its three inputs whole and stores one payload over the whole output. -/
theorem sound_kernel2 (c : Dev nD) (E : Set ℕ) (i : grid2.Coords)
    (arg0 : Memref sig .tc .vmem S10000x32 .f32) (harg0 : arg0.IsWhole) (arg1 : Memref sig .tc .vmem S10000x1 .f32) (harg1 : arg1.IsWhole)
    (arg2 : Memref sig .tc .vmem S32x32 .f32) (harg2 : arg2.IsWhole) (arg3 : Memref sig .tc .vmem S10000x32 .f32) (harg3 : arg3.IsWhole)
    (x0 : Vec F S10000x32 .f32) (x1 : Vec F S10000x1 .f32) (x2 : Vec F S32x32 .f32) (x3 : Vec F S10000x32 .f32) (K : PUnit → sProp 𝕄) :
    iprop(owns c arg0 fullShare x0 ∗ owns c arg1 fullShare x1 ∗ owns c arg2 fullShare x2 ∗ owns c arg3 fullShare x3
        ∗ (iprop(owns c arg0 fullShare x0 ∗ owns c arg1 fullShare x1 ∗ owns c arg2 fullShare x2 ∗ owns c arg3 fullShare (out2_3 x0 x1 x2)) -∗ K ⟨⟩))
      ⊢ wp frame (wpE defs₀ Variants.none c none) E (cc2__transform_kernel i arg0 harg0 arg1 harg1 arg2 harg2 arg3 harg3) K := by
  simp only [cc2__transform_kernel_eq_skeleton]; unfold cc2__transform_kernel_skel owns
  iintro ⟨⟨%f0, %hf0, H0⟩, ⟨%f1, %hf1, H1⟩, ⟨%f2, %hf2, H2⟩, ⟨%f3, -, H3⟩, Hk⟩
  subst hf0 hf1 hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr; swap; · iexact H3
  ipureintro
  exact View.read_writes_eq_canon _ _ _ (View.cover_of_tiled _ S10000x32.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2_3 (c : Dev nD) (t : Fin cfg2.N) :
    (dat2 V c).after 3 t = out2_3 (iblk2 V c 0 t) (iblk2 V c 1 t) (iblk2 V c 2 t) := by dsimp only [dat2]

/-- The body's triple at a point's blocks, with `R` and `S` framed. -/
theorem sound_body2 (c : Dev nD) (t : Fin cfg2.N) (R S : sProp 𝕄) :
    iprop(R ∗ S ∗ (∃ d, owns c (st2_0 t) fullShare ((dat2 V c).before 0 t d)) ∗ (∃ d, owns c (st2_1 t) fullShare ((dat2 V c).before 1 t d))
        ∗ (∃ d, owns c (st2_2 t) fullShare ((dat2 V c).before 2 t d)) ∗ (∃ d, owns c (st2_3 t) fullShare ((dat2 V c).before 3 t d)))
      ⊢ wp frame (wpE defs₀ Variants.none c none) Set.univ (bodyAt2 t) fun _ =>
        iprop(R ∗ S ∗ owns c (st2_0 t) fullShare (iblk2 V c 0 t) ∗ owns c (st2_1 t) fullShare (iblk2 V c 1 t)
          ∗ owns c (st2_2 t) fullShare (iblk2 V c 2 t) ∗ owns c (st2_3 t) fullShare ((dat2 V c).after 3 t)) := by
  have hb : (∀ d, (dat2 V c).before 0 t d = iblk2 V c 0 t) ∧ (∀ d, (dat2 V c).before 1 t d = iblk2 V c 1 t)
      ∧ ∀ d, (dat2 V c).before 2 t d = iblk2 V c 2 t := by
    refine ⟨?_, ?_, ?_⟩ <;> exact (dat2 V c).before_in_eq_fetched _ rfl (fun _ => rfl) (fun _ _ _ => rfl) (fun _ => rfl) t
  simp only [hb, after2_3]
  iintro ⟨HR, HS, ⟨%d0, H0⟩, ⟨%d1, H1⟩, ⟨%d2, H2⟩, ⟨%d3, H3⟩⟩
  iapply sound_kernel2
  iframe H0 H1 H2 H3
  iintro H
  iframe

theorem body_obligation2 (c : Dev nD) : BodyObligation (dat2 (F := F) V c) (defs₀ (F := F)) Variants.none () Set.univ := fun t => by
  rw [bigSep_W2, bigSep_W2]
  exact sound_body2 V c t _ _

end Cert.Kernel.Fr
-- ==== Proof.K.F3.lean ====
import proofs.«424855_j19189913879214_2_alg».proof.Proof.Gen.Kernel.Launch
import proofs.«424855_j19189913879214_2_alg».proof.Proof.Gen.Kernel.Skeleton
import proofs.«424855_j19189913879214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x32 := Rect.unit (s := S10000x32) ![0, 0] S10000x32.size inb_S10000x32_S10000x32_0_0
abbrev r3_1 : Rect S10000x1 := Rect.unit (s := S10000x1) ![0, 0] S10000x1.size inb_S10000x1_S10000x1_0_0
abbrev r3_2 : Rect S1x32 := Rect.unit (s := S1x32) ![0, 0] S1x32.size inb_S1x32_S1x32_0_0

def out3_3 (x0 : Vec F S10000x32 .f32) (x1 : Vec F S10000x1 .f32) (x2 : Vec F S1x32 .f32) : Vec F S10000x32 .f32 :=
  View.canon [⟨r3_0, k3_pay1 (View.ld x0 r3_0) (View.ld x1 r3_1) (View.ld x2 r3_2)⟩]

/-- The body reads its three inputs whole and stores one payload over the whole output. -/
theorem sound_kernel3 (c : Dev nD) (E : Set ℕ) (i : grid3.Coords)
    (arg0 : Memref sig .tc .vmem S10000x32 .f32) (harg0 : arg0.IsWhole) (arg1 : Memref sig .tc .vmem S10000x1 .f32) (harg1 : arg1.IsWhole)
    (arg2 : Memref sig .tc .vmem S1x32 .f32) (harg2 : arg2.IsWhole) (arg3 : Memref sig .tc .vmem S10000x32 .f32) (harg3 : arg3.IsWhole)
    (x0 : Vec F S10000x32 .f32) (x1 : Vec F S10000x1 .f32) (x2 : Vec F S1x32 .f32) (x3 : Vec F S10000x32 .f32) (K : PUnit → sProp 𝕄) :
    iprop(owns c arg0 fullShare x0 ∗ owns c arg1 fullShare x1 ∗ owns c arg2 fullShare x2 ∗ owns c arg3 fullShare x3
        ∗ (iprop(owns c arg0 fullShare x0 ∗ owns c arg1 fullShare x1 ∗ owns c arg2 fullShare x2 ∗ owns c arg3 fullShare (out3_3 x0 x1 x2)) -∗ K ⟨⟩))
      ⊢ wp frame (wpE defs₀ Variants.none c none) E (cc3__finalize_kernel i arg0 harg0 arg1 harg1 arg2 harg2 arg3 harg3) K := by
  simp only [cc3__finalize_kernel_eq_skeleton]; unfold cc3__finalize_kernel_skel owns
  iintro ⟨⟨%f0, %hf0, H0⟩, ⟨%f1, %hf1, H1⟩, ⟨%f2, %hf2, H2⟩, ⟨%f3, -, H3⟩, Hk⟩
  subst hf0 hf1 hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr; swap; · iexact H3
  ipureintro
  exact View.read_writes_eq_canon _ _ _ (View.cover_of_tiled _ S10000x32.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl

theorem after3_3 (c : Dev nD) (t : Fin cfg3.N) :
    (dat3 V c).after 3 t = out3_3 (iblk3 V c 0 t) (iblk3 V c 1 t) (iblk3 V c 2 t) := by dsimp only [dat3]

/-- The body's triple at a point's blocks, with `R` and `S` framed. -/
theorem sound_body3 (c : Dev nD) (t : Fin cfg3.N) (R S : sProp 𝕄) :
    iprop(R ∗ S ∗ (∃ d, owns c (st3_0 t) fullShare ((dat3 V c).before 0 t d)) ∗ (∃ d, owns c (st3_1 t) fullShare ((dat3 V c).before 1 t d))
        ∗ (∃ d, owns c (st3_2 t) fullShare ((dat3 V c).before 2 t d)) ∗ (∃ d, owns c (st3_3 t) fullShare ((dat3 V c).before 3 t d)))
      ⊢ wp frame (wpE defs₀ Variants.none c none) Set.univ (bodyAt3 t) fun _ =>
        iprop(R ∗ S ∗ owns c (st3_0 t) fullShare (iblk3 V c 0 t) ∗ owns c (st3_1 t) fullShare (iblk3 V c 1 t)
          ∗ owns c (st3_2 t) fullShare (iblk3 V c 2 t) ∗ owns c (st3_3 t) fullShare ((dat3 V c).after 3 t)) := by
  have hb : (∀ d, (dat3 V c).before 0 t d = iblk3 V c 0 t) ∧ (∀ d, (dat3 V c).before 1 t d = iblk3 V c 1 t)
      ∧ ∀ d, (dat3 V c).before 2 t d = iblk3 V c 2 t := by
    refine ⟨?_, ?_, ?_⟩ <;> exact (dat3 V c).before_in_eq_fetched _ rfl (fun _ => rfl) (fun _ _ _ => rfl) (fun _ => rfl) t
  simp only [hb, after3_3]
  iintro ⟨HR, HS, ⟨%d0, H0⟩, ⟨%d1, H1⟩, ⟨%d2, H2⟩, ⟨%d3, H3⟩⟩
  iapply sound_kernel3
  iframe H0 H1 H2 H3
  iintro H
  iframe

theorem body_obligation3 (c : Dev nD) : BodyObligation (dat3 (F := F) V c) (defs₀ (F := F)) Variants.none () Set.univ := fun t => by
  rw [bigSep_W3, bigSep_W3]
  exact sound_body3 V c t _ _

end Cert.Kernel.Fr
-- ==== Proof.K.T4.lean ====
import proofs.«424855_j19189913879214_2_alg».proof.Proof.Gen.Kernel.Launch
import proofs.«424855_j19189913879214_2_alg».proof.Proof.Gen.Kernel.Skeleton
import proofs.«424855_j19189913879214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S10000x32 := Rect.unit (s := S10000x32) ![0, 0] S10000x32.size inb_S10000x32_S10000x32_0_0
abbrev r4_1 : Rect S10000x1 := Rect.unit (s := S10000x1) ![0, 0] S10000x1.size inb_S10000x1_S10000x1_0_0
abbrev r4_2 : Rect S32x32 := Rect.unit (s := S32x32) ![0, 0] S32x32.size inb_S32x32_S32x32_0_0
abbrev r4_3 : Rect S10000x32 := Rect.unit (s := S10000x32) ![0, 0] S10000x32.size inb_S10000x32_S10000x32_0_0

def out4_3 (x0 : Vec F S10000x32 .f32) (x1 : Vec F S10000x1 .f32) (x2 : Vec F S32x32 .f32) : Vec F S10000x32 .f32 :=
  View.canon [⟨r4_3, k4_pay1 (View.ld x0 r4_0) (View.ld x1 r4_1) (View.ld x2 r4_2)⟩]

/-- The body reads its three inputs whole and stores one payload over the whole output. -/
theorem sound_kernel4 (c : Dev nD) (E : Set ℕ) (i : grid4.Coords)
    (arg0 : Memref sig .tc .vmem S10000x32 .f32) (harg0 : arg0.IsWhole) (arg1 : Memref sig .tc .vmem S10000x1 .f32) (harg1 : arg1.IsWhole)
    (arg2 : Memref sig .tc .vmem S32x32 .f32) (harg2 : arg2.IsWhole) (arg3 : Memref sig .tc .vmem S10000x32 .f32) (harg3 : arg3.IsWhole)
    (x0 : Vec F S10000x32 .f32) (x1 : Vec F S10000x1 .f32) (x2 : Vec F S32x32 .f32) (x3 : Vec F S10000x32 .f32) (K : PUnit → sProp 𝕄) :
    iprop(owns c arg0 fullShare x0 ∗ owns c arg1 fullShare x1 ∗ owns c arg2 fullShare x2 ∗ owns c arg3 fullShare x3
        ∗ (iprop(owns c arg0 fullShare x0 ∗ owns c arg1 fullShare x1 ∗ owns c arg2 fullShare x2 ∗ owns c arg3 fullShare (out4_3 x0 x1 x2)) -∗ K ⟨⟩))
      ⊢ wp frame (wpE defs₀ Variants.none c none) E (cc4__transform_kernel i arg0 harg0 arg1 harg1 arg2 harg2 arg3 harg3) K := by
  simp only [cc4__transform_kernel_eq_skeleton]; unfold cc4__transform_kernel_skel owns
  iintro ⟨⟨%f0, %hf0, H0⟩, ⟨%f1, %hf1, H1⟩, ⟨%f2, %hf2, H2⟩, ⟨%f3, -, H3⟩, Hk⟩
  subst hf0 hf1 hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr; swap; · iexact H3
  ipureintro
  exact View.read_writes_eq_canon _ _ _ (View.cover_of_tiled _ S10000x32.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl

theorem after4_3 (c : Dev nD) (t : Fin cfg4.N) :
    (dat4 V c).after 3 t = out4_3 (iblk4 V c 0 t) (iblk4 V c 1 t) (iblk4 V c 2 t) := by dsimp only [dat4]

/-- The body's triple at a point's blocks, with `R` and `S` framed. -/
theorem sound_body4 (c : Dev nD) (t : Fin cfg4.N) (R S : sProp 𝕄) :
    iprop(R ∗ S ∗ (∃ d, owns c (st4_0 t) fullShare ((dat4 V c).before 0 t d)) ∗ (∃ d, owns c (st4_1 t) fullShare ((dat4 V c).before 1 t d))
        ∗ (∃ d, owns c (st4_2 t) fullShare ((dat4 V c).before 2 t d)) ∗ (∃ d, owns c (st4_3 t) fullShare ((dat4 V c).before 3 t d)))
      ⊢ wp frame (wpE defs₀ Variants.none c none) Set.univ (bodyAt4 t) fun _ =>
        iprop(R ∗ S ∗ owns c (st4_0 t) fullShare (iblk4 V c 0 t) ∗ owns c (st4_1 t) fullShare (iblk4 V c 1 t)
          ∗ owns c (st4_2 t) fullShare (iblk4 V c 2 t) ∗ owns c (st4_3 t) fullShare ((dat4 V c).after 3 t)) := by
  have hb : (∀ d, (dat4 V c).before 0 t d = iblk4 V c 0 t) ∧ (∀ d, (dat4 V c).before 1 t d = iblk4 V c 1 t)
      ∧ ∀ d, (dat4 V c).before 2 t d = iblk4 V c 2 t := by
    refine ⟨?_, ?_, ?_⟩ <;> exact (dat4 V c).before_in_eq_fetched _ rfl (fun _ => rfl) (fun _ _ _ => rfl) (fun _ => rfl) t
  simp only [hb, after4_3]
  iintro ⟨HR, HS, ⟨%d0, H0⟩, ⟨%d1, H1⟩, ⟨%d2, H2⟩, ⟨%d3, H3⟩⟩
  iapply sound_kernel4
  iframe H0 H1 H2 H3
  iintro H
  iframe

theorem body_obligation4 (c : Dev nD) : BodyObligation (dat4 (F := F) V c) (defs₀ (F := F)) Variants.none () Set.univ := fun t => by
  rw [bigSep_W4, bigSep_W4]
  exact sound_body4 V c t _ _

end Cert.Kernel.Fr
-- ==== Proof.K.F5.lean ====
import proofs.«424855_j19189913879214_2_alg».proof.Proof.Gen.Kernel.Launch
import proofs.«424855_j19189913879214_2_alg».proof.Proof.Gen.Kernel.Skeleton
import proofs.«424855_j19189913879214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S10000x32 := Rect.unit (s := S10000x32) ![0, 0] S10000x32.size inb_S10000x32_S10000x32_0_0
abbrev r5_1 : Rect S10000x1 := Rect.unit (s := S10000x1) ![0, 0] S10000x1.size inb_S10000x1_S10000x1_0_0
abbrev r5_2 : Rect S1x32 := Rect.unit (s := S1x32) ![0, 0] S1x32.size inb_S1x32_S1x32_0_0

def out5_3 (x0 : Vec F S10000x32 .f32) (x1 : Vec F S10000x1 .f32) (x2 : Vec F S1x32 .f32) : Vec F S10000x32 .f32 :=
  View.canon [⟨r5_0, k5_pay1 (View.ld x0 r5_0) (View.ld x1 r5_1) (View.ld x2 r5_2)⟩]

/-- The body reads its three inputs whole and stores one payload over the whole output. -/
theorem sound_kernel5 (c : Dev nD) (E : Set ℕ) (i : grid5.Coords)
    (arg0 : Memref sig .tc .vmem S10000x32 .f32) (harg0 : arg0.IsWhole) (arg1 : Memref sig .tc .vmem S10000x1 .f32) (harg1 : arg1.IsWhole)
    (arg2 : Memref sig .tc .vmem S1x32 .f32) (harg2 : arg2.IsWhole) (arg3 : Memref sig .tc .vmem S10000x32 .f32) (harg3 : arg3.IsWhole)
    (x0 : Vec F S10000x32 .f32) (x1 : Vec F S10000x1 .f32) (x2 : Vec F S1x32 .f32) (x3 : Vec F S10000x32 .f32) (K : PUnit → sProp 𝕄) :
    iprop(owns c arg0 fullShare x0 ∗ owns c arg1 fullShare x1 ∗ owns c arg2 fullShare x2 ∗ owns c arg3 fullShare x3
        ∗ (iprop(owns c arg0 fullShare x0 ∗ owns c arg1 fullShare x1 ∗ owns c arg2 fullShare x2 ∗ owns c arg3 fullShare (out5_3 x0 x1 x2)) -∗ K ⟨⟩))
      ⊢ wp frame (wpE defs₀ Variants.none c none) E (cc5__finalize_kernel i arg0 harg0 arg1 harg1 arg2 harg2 arg3 harg3) K := by
  simp only [cc5__finalize_kernel_eq_skeleton]; unfold cc5__finalize_kernel_skel owns
  iintro ⟨⟨%f0, %hf0, H0⟩, ⟨%f1, %hf1, H1⟩, ⟨%f2, %hf2, H2⟩, ⟨%f3, -, H3⟩, Hk⟩
  subst hf0 hf1 hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr; swap; · iexact H3
  ipureintro
  exact View.read_writes_eq_canon _ _ _ (View.cover_of_tiled _ S10000x32.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := rfl

theorem after5_3 (c : Dev nD) (t : Fin cfg5.N) :
    (dat5 V c).after 3 t = out5_3 (iblk5 V c 0 t) (iblk5 V c 1 t) (iblk5 V c 2 t) := by dsimp only [dat5]

/-- The body's triple at a point's blocks, with `R` and `S` framed. -/
theorem sound_body5 (c : Dev nD) (t : Fin cfg5.N) (R S : sProp 𝕄) :
    iprop(R ∗ S ∗ (∃ d, owns c (st5_0 t) fullShare ((dat5 V c).before 0 t d)) ∗ (∃ d, owns c (st5_1 t) fullShare ((dat5 V c).before 1 t d))
        ∗ (∃ d, owns c (st5_2 t) fullShare ((dat5 V c).before 2 t d)) ∗ (∃ d, owns c (st5_3 t) fullShare ((dat5 V c).before 3 t d)))
      ⊢ wp frame (wpE defs₀ Variants.none c none) Set.univ (bodyAt5 t) fun _ =>
        iprop(R ∗ S ∗ owns c (st5_0 t) fullShare (iblk5 V c 0 t) ∗ owns c (st5_1 t) fullShare (iblk5 V c 1 t)
          ∗ owns c (st5_2 t) fullShare (iblk5 V c 2 t) ∗ owns c (st5_3 t) fullShare ((dat5 V c).after 3 t)) := by
  have hb : (∀ d, (dat5 V c).before 0 t d = iblk5 V c 0 t) ∧ (∀ d, (dat5 V c).before 1 t d = iblk5 V c 1 t)
      ∧ ∀ d, (dat5 V c).before 2 t d = iblk5 V c 2 t := by
    refine ⟨?_, ?_, ?_⟩ <;> exact (dat5 V c).before_in_eq_fetched _ rfl (fun _ => rfl) (fun _ _ _ => rfl) (fun _ => rfl) t
  simp only [hb, after5_3]
  iintro ⟨HR, HS, ⟨%d0, H0⟩, ⟨%d1, H1⟩, ⟨%d2, H2⟩, ⟨%d3, H3⟩⟩
  iapply sound_kernel5
  iframe H0 H1 H2 H3
  iintro H
  iframe

theorem body_obligation5 (c : Dev nD) : BodyObligation (dat5 (F := F) V c) (defs₀ (F := F)) Variants.none () Set.univ := fun t => by
  rw [bigSep_W5, bigSep_W5]
  exact sound_body5 V c t _ _

end Cert.Kernel.Fr
-- ==== Proof.K.PoolRec.lean ====
import proofs.«424855_j19189913879214_2_alg».proof.Proof.Gen.Kernel.Skeleton

noncomputable section

namespace Cert.Kernel.Fr

open Idealize.ShloMosaic Cert.Kernel Cert.Kernel.Gen

variable {F : FTy → Type} [FloatOps F]

/-- The per-graph feature sums after point `n`: every point adds its block's contribution, the first one to zero. -/
def accRec (gb : Nat → Vec F S10000x1 .i32) (xb : Nat → Vec F S10000x32 .f32) : Nat → Vec F S32x64 .f32
  | 0 => k6_pay4 (gb 0) (xb 0) (k6_pay1 (F := F))
  | n + 1 => k6_pay4 (gb (n + 1)) (xb (n + 1)) (accRec gb xb n)

/-- The per-graph node counts after point `n`, accumulated the same way. -/
def cntRec (gb : Nat → Vec F S10000x1 .i32) : Nat → Vec F S1x64 .f32
  | 0 => k6_pay5 (gb 0) (k6_pay2 (F := F))
  | n + 1 => k6_pay5 (gb (n + 1)) (cntRec gb n)

/-- What the last of the ten points stores: the per-graph means through the final linear layer. -/
def poolOut (gb : Nat → Vec F S10000x1 .i32) (xb : Nat → Vec F S10000x32 .f32) (we : Vec F S32x16 .f32) (be : Vec F S1x16 .f32) :
    Vec F S64x16 .f32 :=
  k6_pay6 (cntRec gb 9) (accRec gb xb 9) we be

end Cert.Kernel.Fr

end
-- ==== Proof.K.P6.lean ====
import proofs.«424855_j19189913879214_2_alg».proof.Proof.Gen.Kernel.Launch
import proofs.«424855_j19189913879214_2_alg».proof.Proof.Gen.Kernel.Skeleton
import proofs.«424855_j19189913879214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«424855_j19189913879214_2_alg».proof.Proof.K.PoolRec

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def gblk6 (c : Dev nD) (n : Nat) : Vec F S10000x1 .i32 :=
  if h : n < cfg6.N then iblk6 V c 1 ⟨n, h⟩ else iblk6 V c 1 t6_0

def xblk6 (c : Dev nD) (n : Nat) : Vec F S10000x32 .f32 :=
  if h : n < cfg6.N then iblk6 V c 0 ⟨n, h⟩ else iblk6 V c 0 t6_0

theorem gblk6_val (c : Dev nD) (t : Fin cfg6.N) : gblk6 V c t.val = iblk6 V c 1 t := by
  unfold gblk6; rw [dif_pos t.isLt]

theorem xblk6_val (c : Dev nD) (t : Fin cfg6.N) : xblk6 V c t.val = iblk6 V c 0 t := by
  unfold xblk6; rw [dif_pos t.isLt]

abbrev cond6_0 (i : grid6.Coords) : Prop :=
  (Scalar.cmpi .ne (Scalar.extui (Scalar.cmpi .eq (BitVec.ofNat 32 (i 0).val) 0#32)) 0#32) = 1#1

/-- The reset is taken at the first point only, the result stored at the last only. -/
theorem hcond6 : ∀ t : Fin grid6.N, (cond6_0 (grid6.coords t) ↔ t.val = 0) ∧ (k6_cond2 (grid6.coords t) = 1#1 ↔ t.val = 9) := by
  decide +kernel

theorem idle6_4 : ∀ t : Fin grid6.N, t.val ≠ 9 → cfg6.idle 4 (grid6.coords t) = true ∧ (cfg6.win 4).flush t = false := by
  decide +kernel
theorem live6_4 : ∀ t : Fin grid6.N, t.val = 9 → cfg6.idle 4 (grid6.coords t) = false := by decide +kernel

/-- Before point `n` the two accumulators hold what point `n - 1` left (anything before the first point). -/
def PhiS6 (c : Dev nD) (n : ℕ) : sProp 𝕄 :=
  iprop(∃ a k, ⌜n ≠ 0 → a = accRec (gblk6 V c) (xblk6 V c) (n - 1) ∧ k = cntRec (gblk6 V c) (n - 1)⌝
    ∗ owns c.tc (Memref.whole cc6_scratch0) fullShare a ∗ owns c.tc (Memref.whole cc6_scratch1) fullShare k
    ∗ Pipeline.scopedRestBut (Ix := Unit) (Name := ℕ) (U := UR sig nD τ) (Lvl := ℕ) (Val := Elt F) spec6 c [cc6_scratch0, cc6_scratch1]
    ∗ (∃ r, prngReg c r))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => poolOut (gblk6 V c) (xblk6 V c) (iblk6 V c 2 t) (iblk6 V c 3 t)
  Φ t := PhiS6 V c t.val
  q _ := fullShare
  owed _ := 0

theorem A_eq6 (c : Dev nD) (w : Fin cfg6.W) : (dat6 V c).A w = V c (Pipeline.arrRef spec6 w) := rfl

theorem after6_4 (c : Dev nD) (t : Fin cfg6.N) :
    (dat6 V c).after 4 t = poolOut (gblk6 V c) (xblk6 V c) (iblk6 V c 2 t) (iblk6 V c 3 t) := rfl

theorem hz2 : (![0, 0] : Fin 2 → ℕ) = fun _ => 0 := by funext a; fin_cases a <;> rfl

/-- A buffer last stored through its whole rectangle reads as that store's payload. -/
theorem read_stored {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons.mpr (Or.inl rfl), View.mem_set_unit_zero h inb y⟩).trans
    (View.canon_cons_unit_zero h inb w L)

/-- The body at any point: under `p0` the accumulators restart from zero, under `p1` the result is stored; never both. -/
theorem run6 (c : Dev nD) (E : Set ℕ) (i : grid6.Coords)
    (arg1 : Memref sig .tc .vmem S10000x32 .f32) (harg1 : arg1.IsWhole) (arg2 : Memref sig .tc .vmem S10000x1 .i32) (harg2 : arg2.IsWhole)
    (arg3 : Memref sig .tc .vmem S32x16 .f32) (harg3 : arg3.IsWhole) (arg4 : Memref sig .tc .vmem S1x16 .f32) (harg4 : arg4.IsWhole)
    (arg5 : Memref sig .tc .vmem S64x16 .f32) (harg5 : arg5.IsWhole) (arg6 : Memref sig .tc .vmem S32x64 .f32) (harg6 : arg6.IsWhole)
    (arg7 : Memref sig .tc .vmem S1x64 .f32) (harg7 : arg7.IsWhole)
    {p0 p1 : Prop} [Decidable p0] [Decidable p1] (h0 : cond6_0 i ↔ p0) (h1 : k6_cond2 i = 1#1 ↔ p1) (hne : ¬(p0 ∧ p1))
    (x : Vec F S10000x32 .f32) (g : Vec F S10000x1 .i32) (we : Vec F S32x16 .f32) (be : Vec F S1x16 .f32) (o : Vec F S64x16 .f32)
    (a A : Vec F S32x64 .f32) (n N : Vec F S1x64 .f32)
    (hA : A = k6_pay4 g x (if p0 then k6_pay1 else a)) (hN : N = k6_pay5 g (if p0 then k6_pay2 else n)) (K : PUnit → sProp 𝕄) :
    iprop(owns c.tc arg1 fullShare x ∗ owns c.tc arg2 fullShare g ∗ owns c.tc arg3 fullShare we ∗ owns c.tc arg4 fullShare be
        ∗ owns c.tc arg5 fullShare o ∗ owns c.tc arg6 fullShare a ∗ owns c.tc arg7 fullShare n
        ∗ (iprop(owns c.tc arg1 fullShare x ∗ owns c.tc arg2 fullShare g ∗ owns c.tc arg3 fullShare we ∗ owns c.tc arg4 fullShare be
            ∗ owns c.tc arg5 fullShare (if p1 then k6_pay6 N A we be else o) ∗ owns c.tc arg6 fullShare A ∗ owns c.tc arg7 fullShare N) -∗ K ⟨⟩))
      ⊢ wp frame (wpE (defs₀ (F := F)) Variants.none c none) E (cc6__pool_kernel i arg1 harg1 arg2 harg2 arg3 harg3 arg4 harg4 arg5 harg5 arg6 harg6 arg7 harg7) K := by
  subst hA hN
  simp only [cc6__pool_kernel_eq_skeleton]; unfold cc6__pool_kernel_skel owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  subst e1 e2 e3 e4 e5 e6 e7
  by_cases hp0 : p0 <;> by_cases hp1 : p1
  · exact absurd ⟨hp0, hp1⟩ hne
  all_goals
    simp only [hp0, hp1, if_true, if_false]
    rw [← h0] at hp0; rw [← h1] at hp1
    sl_exec
    sl_step
    iapply Hk
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    isplitl [H6]; iexists _; isplitr; swap; iexact H6; rotate_left
    iexists _; isplitr; swap; iexact H7
    all_goals
      ipureintro; try sl_unfold_words
      first
        | exact (read_stored _ _ hz2 _ _ _).trans (by
            simp only [View.readAt_eq_ld, View.ld_unit_zero (S := S10000x1) hz2, View.ld_unit_zero (S := S10000x32) hz2,
              View.ld_unit_zero (S := S32x64) hz2, View.ld_unit_zero (S := S1x64) hz2, View.ld_unit_zero (S := S32x16) hz2,
              View.ld_unit_zero (S := S1x16) hz2, View.readCov_unit_zero (S := S32x64) _ hz2, View.readCov_unit_zero (S := S1x64) _ hz2])
        | rfl

/-- The accumulators after point `n`, from what the point before left (from zero at the first point). -/
theorem accRec_step (gb : Nat → Vec F S10000x1 .i32) (xb : Nat → Vec F S10000x32 .f32) (n : ℕ) (a : Vec F S32x64 .f32)
    (h : n ≠ 0 → a = accRec gb xb (n - 1)) : accRec gb xb n = k6_pay4 (gb n) (xb n) (if n = 0 then k6_pay1 else a) := by
  cases n with
  | zero => rfl
  | succ m => rw [if_neg m.succ_ne_zero, h m.succ_ne_zero]; rfl

theorem cntRec_step (gb : Nat → Vec F S10000x1 .i32) (n : ℕ) (k : Vec F S1x64 .f32)
    (h : n ≠ 0 → k = cntRec gb (n - 1)) : cntRec gb n = k6_pay5 (gb n) (if n = 0 then k6_pay2 else k) := by
  cases n with
  | zero => rfl
  | succ m => rw [if_neg m.succ_ne_zero, h m.succ_ne_zero]; rfl

/-- The output buffer after a point: the pooled result at the last point, untouched elsewhere. -/
theorem leaves6_4 (c : Dev nD) (t : Fin cfg6.N) (d) :
    owns c.tc (st6_4 t) fullShare (if t.val = 9 then k6_pay6 (cntRec (gblk6 V c) t.val) (accRec (gblk6 V c) (xblk6 V c) t.val)
        (iblk6 V c 2 t) (iblk6 V c 3 t) else (dat6 V c).before 4 t d) ⊢ (dat6 V c).leavesExact 4 t := by
  by_cases h9 : t.val = 9
  · rw [if_pos h9, h9]; unfold Dat.leavesExact; rw [live6_4 t h9]; iintro H; iexact H
  · rw [if_neg h9, Dat.leavesExact_idle _ 4 t (idle6_4 t h9).1 (idle6_4 t h9).2]; iintro H; iexists d; iexact H

/-- The body obligation: the point's blocks in, the accumulators stepped, the output window as `leaves6_4` says. -/
theorem body_obligation6 (c : Dev nD) : BodyObligation (dat6 (F := F) V c) (defs₀ (F := F)) Variants.none () Set.univ := fun t => by
  have bf := fun w hw hl hc hk => (dat6 V c).before_in_eq_fetched w hw hl hc hk t
  rw [bigSep_W6, bigSep_W6, show (dat6 V c).Φ t.castSucc = PhiS6 V c t.val from rfl,
    show (dat6 V c).Φ t.succ = PhiS6 V c (t.val + 1) from rfl]
  simp only [bf 0 rfl (fun _ => rfl) (fun _ _ _ => rfl) (fun _ => rfl), bf 1 rfl (fun _ => rfl) (fun _ _ _ => rfl) (fun _ => rfl),
    bf 2 rfl (fun _ => rfl) (fun _ _ _ => rfl) (fun _ => rfl), bf 3 rfl (fun _ => rfl) (fun _ _ _ => rfl) (fun _ => rfl)]
  unfold PhiS6
  show _ ⊢ wp frame _ _ (bodyAt6 t) _
  iintro ⟨⟨%a, %k, %hak, HS0, HS1, HR, Hg⟩, Ho, ⟨%d0, H0⟩, ⟨%d1, H1⟩, ⟨%d2, H2⟩, ⟨%d3, H3⟩, ⟨%d4, H4⟩⟩
  iapply (run6 c Set.univ (grid6.coords t) _ _ _ _ _ _ _ _ _ _ _ _ _ _ (hcond6 t).1 (hcond6 t).2 (fun h => by omega)
    (iblk6 V c 0 t) (iblk6 V c 1 t) (iblk6 V c 2 t) (iblk6 V c 3 t) ((dat6 V c).before 4 t d4) a _ k _
    ((accRec_step _ _ _ a fun h => (hak h).1).trans (by rw [gblk6_val, xblk6_val]))
    ((cntRec_step _ _ k fun h => (hak h).2).trans (by rw [gblk6_val])) _)
  isplitl [H0]; · iexact H0
  isplitl [H1]; · iexact H1
  isplitl [H2]; · iexact H2
  isplitl [H3]; · iexact H3
  iframe H4 HS0 HS1
  iintro ⟨H0, H1, H2, H3, H4, HS0, HS1⟩
  isplitl [HS0 HS1 HR Hg]
  · iexists _, _; iframe HS0 HS1 HR Hg; ipureintro; exact fun _ => ⟨rfl, rfl⟩
  isplitl [Ho]; · iexact Ho
  isplitl [H0]; · iexact H0
  isplitl [H1]; · iexact H1
  isplitl [H2]; · iexact H2
  isplitl [H3]; · iexact H3
  iapply (leaves6_4 V c t d4); iexact H4

theorem Φ6_in (c : Dev nD) : (Pipeline.ΦA spec6 c : sProp 𝕄) ⊢ (dat6 V c).Φ 0 := by
  show _ ⊢ PhiS6 V c 0
  unfold Pipeline.ΦA PhiS6; rw [scopedRest6_split]; simp only [owns_whole]
  iintro ⟨⟨⟨⟨%a, HS0⟩, ⟨%k, HS1⟩⟩, HR⟩, Hg⟩
  iexists a, k; iframe HS0 HS1 HR Hg; ipureintro; exact fun h => absurd rfl h

theorem Φ6_out (c : Dev nD) : (dat6 V c).Φ (Fin.last _) ⊢ (Pipeline.ΦA spec6 c : sProp 𝕄) := by
  show PhiS6 V c _ ⊢ _
  unfold Pipeline.ΦA PhiS6; rw [scopedRest6_split]; simp only [owns_whole]
  iintro ⟨%a, %k, -, HS0, HS1, HR, Hg⟩
  iframe HR Hg
  isplitl [HS0]
  · iexists a; iexact HS0
  · iexists k; iexact HS1

end Cert.Kernel.Fr

end
-- ==== Proof.K.Fold.lean ====
import proofs.«424855_j19189913879214_2_alg».proof.Proof.K.T0
import proofs.«424855_j19189913879214_2_alg».proof.Proof.K.F1
import proofs.«424855_j19189913879214_2_alg».proof.Proof.K.T2
import proofs.«424855_j19189913879214_2_alg».proof.Proof.K.F3
import proofs.«424855_j19189913879214_2_alg».proof.Proof.K.T4
import proofs.«424855_j19189913879214_2_alg».proof.Proof.K.F5
import proofs.«424855_j19189913879214_2_alg».proof.Proof.K.P6
import proofs.«424855_j19189913879214_2_alg».proof.Proof.Gen.Kernel.Regions
import Idealize.ShloMosaic.Lib.Pipeline.FrameBody
import Idealize.ShloMosaic.Lib.Pipeline.RegionsLoop
import Idealize.ShloMosaic.Lib.Pipeline.FrameSuffix

noncomputable section

namespace Cert.Kernel.Fr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
def W6 (c : Dev nD) : Valuation τ sig (Elt F) :=
  Pipeline.withArrays spec0 c (W5 m c) fun w => (dat0 (atTc (W5 m)) c).arrAt w cfg0.N
abbrev W7 : Dev nD → Valuation τ sig (Elt F) := fun c => StableHlo.after hostOps1 (W6 m c)
def W8 (c : Dev nD) : Valuation τ sig (Elt F) :=
  Pipeline.withArrays spec1 c (W7 m c) fun w => (dat1 (atTc (W7 m)) c).arrAt w cfg1.N
abbrev W9 : Dev nD → Valuation τ sig (Elt F) := fun c => StableHlo.after hostOps2 (W8 m c)
def W10 (c : Dev nD) : Valuation τ sig (Elt F) :=
  Pipeline.withArrays spec2 c (W9 m c) fun w => (dat2 (atTc (W9 m)) c).arrAt w cfg2.N
abbrev W11 : Dev nD → Valuation τ sig (Elt F) := fun c => StableHlo.after hostOps3 (W10 m c)
def W12 (c : Dev nD) : Valuation τ sig (Elt F) :=
  Pipeline.withArrays spec3 c (W11 m c) fun w => (dat3 (atTc (W11 m)) c).arrAt w cfg3.N
abbrev W13 : Dev nD → Valuation τ sig (Elt F) := fun c => StableHlo.after hostOps4 (W12 m c)
def W14 (c : Dev nD) : Valuation τ sig (Elt F) :=
  Pipeline.withArrays spec4 c (W13 m c) fun w => (dat4 (atTc (W13 m)) c).arrAt w cfg4.N
abbrev W15 : Dev nD → Valuation τ sig (Elt F) := fun c => StableHlo.after hostOps5 (W14 m c)
def W16 (c : Dev nD) : Valuation τ sig (Elt F) :=
  Pipeline.withArrays spec5 c (W15 m c) fun w => (dat5 (atTc (W15 m)) c).arrAt w cfg5.N
abbrev W17 : Dev nD → Valuation τ sig (Elt F) := fun c => StableHlo.after hostOps6 (W16 m c)
def W18 (c : Dev nD) : Valuation τ sig (Elt F) :=
  Pipeline.withArrays spec6 c (W17 m c) fun w => (dat6 (atTc (W17 m)) c).arrAt w cfg6.N

/-- A region leaves every buffer but its output array as it found it: an input window's array is never written. -/
theorem exit_keep {p : Fin 7} (launch : Pipeline.LaunchFacts (nD := nD) (τ := τ) cfgs p) (c : Dev nD) (Wi : Dev nD → Valuation τ sig (Elt F))
    (dat : Dat τ (Elt F) Unit ℕ (UR sig nD τ) ℕ (cfgs p) c) (hA : ∀ w, dat.A w = atTc Wi c (Pipeline.arrRef (cfgs p).spec w)) (bo : Ref sig .tc)
    (hbo : ∀ w, Pipeline.arrRef (cfgs p).spec w ≠ bo → ((cfgs p).win w).isOut = false) (b : Ref sig .tc) (hb : b ≠ bo) :
    Pipeline.withArrays (cfgs p).spec c (Wi c) (fun w => dat.arrAt w (cfgs p).N) (Proc.devRef .tc b) = Wi c (Proc.devRef .tc b) := by
  by_cases h : ∃ w, Pipeline.arrRef (cfgs p).spec w = b
  · obtain ⟨w, rfl⟩ := h
    exact (Pipeline.withArrays_arr _ launch.win.arr_inj c _ _ w).trans ((dat.arrAt_in w (hbo w hb) _).trans (hA w))
  · exact Pipeline.withArrays_of_ne _ c _ _ b fun w e => h ⟨w, e⟩

theorem W6_arr (c : Dev nD) (w : Fin cfg0.W) : W6 m c (Proc.devRef .tc (Pipeline.arrRef spec0 w)) = (dat0 (atTc (W5 m)) c).arrAt w cfg0.N :=
  Pipeline.withArrays_arr spec0 launch0.win.arr_inj c _ _ w
theorem W8_arr (c : Dev nD) (w : Fin cfg1.W) : W8 m c (Proc.devRef .tc (Pipeline.arrRef spec1 w)) = (dat1 (atTc (W7 m)) c).arrAt w cfg1.N :=
  Pipeline.withArrays_arr spec1 launch1.win.arr_inj c _ _ w
theorem W10_arr (c : Dev nD) (w : Fin cfg2.W) : W10 m c (Proc.devRef .tc (Pipeline.arrRef spec2 w)) = (dat2 (atTc (W9 m)) c).arrAt w cfg2.N :=
  Pipeline.withArrays_arr spec2 launch2.win.arr_inj c _ _ w
theorem W12_arr (c : Dev nD) (w : Fin cfg3.W) : W12 m c (Proc.devRef .tc (Pipeline.arrRef spec3 w)) = (dat3 (atTc (W11 m)) c).arrAt w cfg3.N :=
  Pipeline.withArrays_arr spec3 launch3.win.arr_inj c _ _ w
theorem W14_arr (c : Dev nD) (w : Fin cfg4.W) : W14 m c (Proc.devRef .tc (Pipeline.arrRef spec4 w)) = (dat4 (atTc (W13 m)) c).arrAt w cfg4.N :=
  Pipeline.withArrays_arr spec4 launch4.win.arr_inj c _ _ w
theorem W16_arr (c : Dev nD) (w : Fin cfg5.W) : W16 m c (Proc.devRef .tc (Pipeline.arrRef spec5 w)) = (dat5 (atTc (W15 m)) c).arrAt w cfg5.N :=
  Pipeline.withArrays_arr spec5 launch5.win.arr_inj c _ _ w
theorem W18_arr (c : Dev nD) (w : Fin cfg6.W) : W18 m c (Proc.devRef .tc (Pipeline.arrRef spec6 w)) = (dat6 (atTc (W17 m)) c).arrAt w cfg6.N :=
  Pipeline.withArrays_arr spec6 launch6.win.arr_inj c _ _ w
theorem W6_keep (c : Dev nD) (b : Ref sig .tc) (hb : b ≠ main_v12) : W6 m c (Proc.devRef .tc b) = W5 m c (Proc.devRef .tc b) :=
  exit_keep launch0 c (W5 m) _ (A_eq0 _ c) main_v12 (by decide) b hb
theorem W8_keep (c : Dev nD) (b : Ref sig .tc) (hb : b ≠ main_v25) : W8 m c (Proc.devRef .tc b) = W7 m c (Proc.devRef .tc b) :=
  exit_keep launch1 c (W7 m) _ (A_eq1 _ c) main_v25 (by decide) b hb
theorem W10_keep (c : Dev nD) (b : Ref sig .tc) (hb : b ≠ main_v27) : W10 m c (Proc.devRef .tc b) = W9 m c (Proc.devRef .tc b) :=
  exit_keep launch2 c (W9 m) _ (A_eq2 _ c) main_v27 (by decide) b hb
theorem W12_keep (c : Dev nD) (b : Ref sig .tc) (hb : b ≠ main_v40) : W12 m c (Proc.devRef .tc b) = W11 m c (Proc.devRef .tc b) :=
  exit_keep launch3 c (W11 m) _ (A_eq3 _ c) main_v40 (by decide) b hb
theorem W14_keep (c : Dev nD) (b : Ref sig .tc) (hb : b ≠ main_v42) : W14 m c (Proc.devRef .tc b) = W13 m c (Proc.devRef .tc b) :=
  exit_keep launch4 c (W13 m) _ (A_eq4 _ c) main_v42 (by decide) b hb
theorem W16_keep (c : Dev nD) (b : Ref sig .tc) (hb : b ≠ main_v55) : W16 m c (Proc.devRef .tc b) = W15 m c (Proc.devRef .tc b) :=
  exit_keep launch5 c (W15 m) _ (A_eq5 _ c) main_v55 (by decide) b hb
theorem W18_keep (c : Dev nD) (b : Ref sig .tc) (hb : b ≠ main_v58) : W18 m c (Proc.devRef .tc b) = W17 m c (Proc.devRef .tc b) :=
  exit_keep launch6 c (W17 m) _ (A_eq6 _ c) main_v58 (by decide) b hb

def pdats : (p : Fin 7) → (c : Dev nD) → Dat τ (Elt F) Unit ℕ (UR sig nD τ) ℕ (Pipeline.pin (pcfgs (F := F)) adm p) c
  | ⟨0, _⟩ => fun c => dat0 (atTc (W5 m)) c
  | ⟨1, _⟩ => fun c => dat1 (atTc (W7 m)) c
  | ⟨2, _⟩ => fun c => dat2 (atTc (W9 m)) c
  | ⟨3, _⟩ => fun c => dat3 (atTc (W11 m)) c
  | ⟨4, _⟩ => fun c => dat4 (atTc (W13 m)) c
  | ⟨5, _⟩ => fun c => dat5 (atTc (W15 m)) c
  | ⟨6, _⟩ => fun c => dat6 (atTc (W17 m)) c
abbrev 𝒱₀ : Variants := Variants.none
abbrev L : GSem nD τ sig → Finset Unit := fun _ => ∅
abbrev lv : GSem nD τ sig → Unit → ℕ := fun _ _ => 0

local notation "𝕄" => MT nD τ sig Unit (Elt F) ℕ (UR sig nD τ) ℕ

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W18 m c) ∗ ∃ r, prngReg c r)

abbrev written : List (Ref sig .tc) :=
  hostOps0_W ++ hostOps0_1_W ++ hostOps0_2_W ++ hostOps0_3_W ++ hostOps0_4_W ++ hostOps1_W ++ hostOps2_W ++ hostOps3_W ++ hostOps4_W
    ++ hostOps5_W ++ hostOps6_W ++ [main_v12, main_v25, main_v27, main_v40, main_v42, main_v55, main_v58]

/-- A buffer no item writes reaches the end of @main as launched: each item in turn leaves it alone. -/
theorem W18_unwritten (c : Dev nD) (b : Ref sig .tc) (h : b ∉ written) : W18 m c (Proc.devRef .tc b) = m ((c : Thread nD τ).loc b) := by
  have nw {l : List (Ref sig .tc)} (hl : l ⊆ written) : b ∉ l := fun hb => h (hl hb)
  have nv {v : Ref sig .tc} (hv : v ∈ written) : b ≠ v := fun e => h (e ▸ hv)
  calc W18 m c (Proc.devRef .tc b)
    _ = W17 m c (Proc.devRef .tc b) := W18_keep m c b (nv (by decide))
    _ = W16 m c (Proc.devRef .tc b) := StableHlo.after_of_writes_sub hostOps6 _ hostOps6_writes (nw (by decide))
    _ = W15 m c (Proc.devRef .tc b) := W16_keep m c b (nv (by decide))
    _ = W14 m c (Proc.devRef .tc b) := StableHlo.after_of_writes_sub hostOps5 _ hostOps5_writes (nw (by decide))
    _ = W13 m c (Proc.devRef .tc b) := W14_keep m c b (nv (by decide))
    _ = W12 m c (Proc.devRef .tc b) := StableHlo.after_of_writes_sub hostOps4 _ hostOps4_writes (nw (by decide))
    _ = W11 m c (Proc.devRef .tc b) := W12_keep m c b (nv (by decide))
    _ = W10 m c (Proc.devRef .tc b) := StableHlo.after_of_writes_sub hostOps3 _ hostOps3_writes (nw (by decide))
    _ = W9 m c (Proc.devRef .tc b) := W10_keep m c b (nv (by decide))
    _ = W8 m c (Proc.devRef .tc b) := StableHlo.after_of_writes_sub hostOps2 _ hostOps2_writes (nw (by decide))
    _ = W7 m c (Proc.devRef .tc b) := W8_keep m c b (nv (by decide))
    _ = W6 m c (Proc.devRef .tc b) := StableHlo.after_of_writes_sub hostOps1 _ hostOps1_writes (nw (by decide))
    _ = W5 m c (Proc.devRef .tc b) := W6_keep m c b (nv (by decide))
    _ = W4 m c (Proc.devRef .tc b) := StableHlo.after_of_writes_sub hostOps0_4 _ hostOps0_4_writes (nw (by decide))
    _ = W3 m c (Proc.devRef .tc b) := StableHlo.after_of_writes_sub hostOps0_3 _ hostOps0_3_writes (nw (by decide))
    _ = W2 m c (Proc.devRef .tc b) := StableHlo.after_of_writes_sub hostOps0_2 _ hostOps0_2_writes (nw (by decide))
    _ = W1 m c (Proc.devRef .tc b) := StableHlo.after_of_writes_sub hostOps0_1 _ hostOps0_1_writes (nw (by decide))
    _ = W0 m c (Proc.devRef .tc b) := StableHlo.after_of_writes_sub hostOps0 _ hostOps0_writes (nw (by decide))
    _ = m ((c : Thread nD τ).loc b) := rfl

end Cert.Kernel.Fr

end
-- ==== Proof.K.Reg.lean ====
import proofs.«424855_j19189913879214_2_alg».proof.Proof.K.Fold

noncomputable section

namespace Cert.Kernel.Fr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- What region `p`, entered at `Wi`, leaves: its arrays at the proof data's final contents, every other buffer as entered. -/
abbrev exitOf (p : Fin 7) (Wi : Dev nD → Valuation τ sig (Elt F)) (c : Dev nD) : Valuation τ sig (Elt F) :=
  Pipeline.withArrays (Pipeline.pin (pcfgs (F := F)) adm p).spec c (Wi c) fun w => (pdats m p c).arrAt w (Pipeline.pin (pcfgs (F := F)) adm p).N

set_option backward.isDefEq.respectTransparency.types false in
/-- Kernel region `p` as a segment of @main from the contents `Wi` to `exitOf m p Wi`. -/
def regOf (p : Fin 7) (launch : Pipeline.LaunchFacts (nD := nD) (τ := τ) cfgs p) (Wi : Dev nD → Valuation τ sig (Elt F))
    (hbody : ∀ c, BodyObligation (pdats m p c) (defs₀ (F := F)) 𝒱₀ () Set.univ)
    (hΦi : ∀ c, (Pipeline.ΦA (Pipeline.pin (pcfgs (F := F)) adm p).spec c : sProp 𝕄) ⊢ (pdats m p c).Φ 0 := by exact fun _ => .rfl)
    (hΦo : ∀ c, (pdats m p c).Φ (Fin.last _) ⊢ (Pipeline.ΦA (Pipeline.pin (pcfgs (F := F)) adm p).spec c : sProp 𝕄) := by exact fun _ => .rfl)
    (hq : ∀ c w, (pdats m p c).q w = fullShare := by exact fun _ _ => rfl) (howed : ∀ c t, (pdats m p c).owed t = 0 := by exact fun _ _ => rfl)
    (hrec : ∀ c x, x ∈ (pdats m p c).recorded 0 := by exact fun _ _ => trivial)
    (hA : ∀ c w, (pdats m p c).A w = atTc Wi c (Pipeline.arrRef (Pipeline.pin (pcfgs (F := F)) adm p).spec w) := by exact fun _ _ => rfl) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (exitOf m p Wi c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (atTc Wi c)
  hentry c := by
    rw [Pipeline.ownSems0_none]
    have hsplit := Pipeline.arrays_of_unscopedBufs (p := p) (pcfgs (F := F)) adm (pdats m) launch.win launch.arr_whole c
      ((pdats m p c).share_full (hq c)) (atTc Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (hrec c x)
      rw [howed]; iexact HO
    isplitl [Hp]; · iexact Hp
    iexact Hrest
  hin c := by
    refine .trans ?_ (hΦi c); unfold Pipeline.ΦA
    iintro ⟨Hp, -, Hr⟩
    isplitl [Hr]; · iexact Hr
    iexact Hp
  hout c := by
    rw [Pipeline.ownSems0_none]; refine (hΦo c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (atTc Wi c) (atTc (exitOf m p Wi) c) ((pdats m p c).arrAt · (Pipeline.pin (pcfgs (F := F)) adm p).N)
      (fun w => (Pipeline.withArrays_arr (Pipeline.pin (pcfgs (F := F)) adm p).spec launch.win.arr_inj c (Wi c) (fun w => (pdats m p c).arrAt w (Pipeline.pin (pcfgs (F := F)) adm p).N) w).symm)
      (fun b hb => Pipeline.withArrays_of_ne (Pipeline.pin (pcfgs (F := F)) adm p).spec c (Wi c) (fun w => (pdats m p c).arrAt w (Pipeline.pin (pcfgs (F := F)) adm p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; rw [howed]; iexact HO

/-- @main's seven kernel regions, each entered at the contents the items before it leave. -/
def reg0 := regOf m 0 launch0 (W5 m) (body_obligation0 (atTc (W5 m)))
def reg1 := regOf m 1 launch1 (W7 m) (body_obligation1 (atTc (W7 m)))
def reg2 := regOf m 2 launch2 (W9 m) (body_obligation2 (atTc (W9 m)))
def reg3 := regOf m 3 launch3 (W11 m) (body_obligation3 (atTc (W11 m)))
def reg4 := regOf m 4 launch4 (W13 m) (body_obligation4 (atTc (W13 m)))
def reg5 := regOf m 5 launch5 (W15 m) (body_obligation5 (atTc (W15 m)))
def reg6 := regOf m 6 launch6 (W17 m) (body_obligation6 (atTc (W17 m))) (Φ6_in (atTc (W17 m))) (Φ6_out (atTc (W17 m)))

end Cert.Kernel.Fr

end
-- ==== Proof.K.Run.lean ====
import proofs.«424855_j19189913879214_2_alg».proof.Proof.K.Reg
import Idealize.ShloMosaic.Lib.Pipeline.Kit

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's eighteen items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .host (hseg hostOps1 hostOps1_sub hostOps1_fresh (W6 m)),
    .region (reg1 m),
    .host (hseg hostOps2 hostOps2_sub hostOps2_fresh (W8 m)),
    .region (reg2 m),
    .host (hseg hostOps3 hostOps3_sub hostOps3_fresh (W10 m)),
    .region (reg3 m),
    .host (hseg hostOps4 hostOps4_sub hostOps4_fresh (W12 m)),
    .region (reg4 m),
    .host (hseg hostOps5 hostOps5_sub hostOps5_fresh (W14 m)),
    .region (reg5 m),
    .host (hseg hostOps6 hostOps6_sub hostOps6_fresh (W16 m)),
    .region (reg6 m) ]

theorem main_run (c : Dev nD) : main (F := F) c = Pipeline.Seg.run (segs m) := (main_chain c).trans (by chain_rfl)

set_option backward.isDefEq.respectTransparency.types false in
/-- Every weakly fair execution of @main ends, faultless, with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W18 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m c b)
    (hfin := fun c s' => by
      iintro ⟨⟨Hh, -⟩, HSI⟩
      unfold StableHlo.held
      imodintro
      iapply (pointsTo_read_all (Pipeline.ucRefs τ sig) (fun b => (((c : Thread nD τ)).1, b)) (W18 m c) s')
      isplitl [Hh] <;> iassumption)
    (hQ := fun s h c => h c)

/-- An argument array, written by no item, is read back at the end as launched. -/
theorem kept {c : Dev nD} {s : MemSt nD τ sig (Elt F)} (h : ∀ b ∈ Pipeline.ucRefs τ sig, s.mem (((c : Thread nD τ)).1, b) = W18 m c b)
    (a : Ref sig .tc) (hs : ¬ (Proc.devRef .tc a : DevRef τ sig).isScoped) (hw : a ∉ written) :
    s.mem ((c.tc : Thread nD τ).loc a) = m ((c.tc : Thread nD τ).loc a) :=
  (h _ (mem_uc a hs)).trans (W18_unwritten m c a hw)

/-- The run read at the result buffer and at the arguments. -/
theorem run_res : θ_run defs (onTc (τ := τ) (main (F := F))) ⟨m, fun _ => 0, ρ⟩ (fun r => ∀ c : Dev nD,
      r.2.mem ((c.tc : Thread nD τ).loc main_v58) = W18 m c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v58 (by decide)),
    kept m (h c) main_arg0 (by decide) (by decide), kept m (h c) main_arg1 (by decide) (by decide), kept m (h c) main_arg2 (by decide) (by decide), kept m (h c) main_arg3 (by decide) (by decide),
    kept m (h c) main_arg4 (by decide) (by decide), kept m (h c) main_arg5 (by decide) (by decide), kept m (h c) main_arg6 (by decide) (by decide), kept m (h c) main_arg7 (by decide) (by decide),
    kept m (h c) main_arg8 (by decide) (by decide), kept m (h c) main_arg9 (by decide) (by decide), kept m (h c) main_arg10 (by decide) (by decide), kept m (h c) main_arg11 (by decide) (by decide)⟩) (run_all m ρ)

end Cert.Kernel.Fr

end
-- ==== Proof.KI.T0.lean ====
import proofs.«424855_j19189913879214_2_alg».proof.Proof.Gen.KernelIdeal.Launch
import proofs.«424855_j19189913879214_2_alg».proof.Proof.Gen.KernelIdeal.Skeleton
import proofs.«424855_j19189913879214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x128 := Rect.unit (s := S10000x128) ![0, 0] S10000x128.size inb_S10000x128_S10000x128_0_0
abbrev r0_1 : Rect S10000x1 := Rect.unit (s := S10000x1) ![0, 0] S10000x1.size inb_S10000x1_S10000x1_0_0
abbrev r0_2 : Rect S128x32 := Rect.unit (s := S128x32) ![0, 0] S128x32.size inb_S128x32_S128x32_0_0
abbrev r0_3 : Rect S10000x32 := Rect.unit (s := S10000x32) ![0, 0] S10000x32.size inb_S10000x32_S10000x32_0_0

def out0_3 (x0 : Vec F S10000x128 .f32) (x1 : Vec F S10000x1 .f32) (x2 : Vec F S128x32 .f32) : Vec F S10000x32 .f32 :=
  View.canon [⟨r0_3, k0_pay1 (View.ld x0 r0_0) (View.ld x1 r0_1) (View.ld x2 r0_2)⟩]

/-- The body reads its three inputs whole and stores one payload over the whole output. -/
theorem sound_kernel0 (c : Dev nD) (E : Set ℕ) (i : grid0.Coords)
    (arg0 : Memref sig .tc .vmem S10000x128 .f32) (harg0 : arg0.IsWhole) (arg1 : Memref sig .tc .vmem S10000x1 .f32) (harg1 : arg1.IsWhole)
    (arg2 : Memref sig .tc .vmem S128x32 .f32) (harg2 : arg2.IsWhole) (arg3 : Memref sig .tc .vmem S10000x32 .f32) (harg3 : arg3.IsWhole)
    (x0 : Vec F S10000x128 .f32) (x1 : Vec F S10000x1 .f32) (x2 : Vec F S128x32 .f32) (x3 : Vec F S10000x32 .f32) (K : PUnit → sProp 𝕄) :
    iprop(owns c arg0 fullShare x0 ∗ owns c arg1 fullShare x1 ∗ owns c arg2 fullShare x2 ∗ owns c arg3 fullShare x3
        ∗ (iprop(owns c arg0 fullShare x0 ∗ owns c arg1 fullShare x1 ∗ owns c arg2 fullShare x2 ∗ owns c arg3 fullShare (out0_3 x0 x1 x2)) -∗ K ⟨⟩))
      ⊢ wp frame (wpE defs₀ Variants.none c none) E (cc0__transform_kernel i arg0 harg0 arg1 harg1 arg2 harg2 arg3 harg3) K := by
  simp only [cc0__transform_kernel_eq_skeleton]; unfold cc0__transform_kernel_skel owns
  iintro ⟨⟨%f0, %hf0, H0⟩, ⟨%f1, %hf1, H1⟩, ⟨%f2, %hf2, H2⟩, ⟨%f3, -, H3⟩, Hk⟩
  subst hf0 hf1 hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr; swap; · iexact H3
  ipureintro
  exact View.read_writes_eq_canon _ _ _ (View.cover_of_tiled _ S10000x32.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = out0_3 (iblk0 V c 0 t) (iblk0 V c 1 t) (iblk0 V c 2 t) := by dsimp only [dat0]

/-- The body's triple at a point's blocks, with `R` and `S` framed. -/
theorem sound_body0 (c : Dev nD) (t : Fin cfg0.N) (R S : sProp 𝕄) :
    iprop(R ∗ S ∗ (∃ d, owns c (st0_0 t) fullShare ((dat0 V c).before 0 t d)) ∗ (∃ d, owns c (st0_1 t) fullShare ((dat0 V c).before 1 t d))
        ∗ (∃ d, owns c (st0_2 t) fullShare ((dat0 V c).before 2 t d)) ∗ (∃ d, owns c (st0_3 t) fullShare ((dat0 V c).before 3 t d)))
      ⊢ wp frame (wpE defs₀ Variants.none c none) Set.univ (bodyAt0 t) fun _ =>
        iprop(R ∗ S ∗ owns c (st0_0 t) fullShare (iblk0 V c 0 t) ∗ owns c (st0_1 t) fullShare (iblk0 V c 1 t)
          ∗ owns c (st0_2 t) fullShare (iblk0 V c 2 t) ∗ owns c (st0_3 t) fullShare ((dat0 V c).after 3 t)) := by
  have hb : (∀ d, (dat0 V c).before 0 t d = iblk0 V c 0 t) ∧ (∀ d, (dat0 V c).before 1 t d = iblk0 V c 1 t)
      ∧ ∀ d, (dat0 V c).before 2 t d = iblk0 V c 2 t := by
    refine ⟨?_, ?_, ?_⟩ <;> exact (dat0 V c).before_in_eq_fetched _ rfl (fun _ => rfl) (fun _ _ _ => rfl) (fun _ => rfl) t
  simp only [hb, after0_3]
  iintro ⟨HR, HS, ⟨%d0, H0⟩, ⟨%d1, H1⟩, ⟨%d2, H2⟩, ⟨%d3, H3⟩⟩
  iapply sound_kernel0
  iframe H0 H1 H2 H3
  iintro H
  iframe

theorem body_obligation0 (c : Dev nD) : BodyObligation (dat0 (F := F) V c) (defs₀ (F := F)) Variants.none () Set.univ := fun t => by
  rw [bigSep_W0, bigSep_W0]
  exact sound_body0 V c t _ _

end Cert.KernelIdeal.Fr
-- ==== Proof.KI.F1.lean ====
import proofs.«424855_j19189913879214_2_alg».proof.Proof.Gen.KernelIdeal.Launch
import proofs.«424855_j19189913879214_2_alg».proof.Proof.Gen.KernelIdeal.Skeleton
import proofs.«424855_j19189913879214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x32 := Rect.unit (s := S10000x32) ![0, 0] S10000x32.size inb_S10000x32_S10000x32_0_0
abbrev r1_1 : Rect S10000x1 := Rect.unit (s := S10000x1) ![0, 0] S10000x1.size inb_S10000x1_S10000x1_0_0
abbrev r1_2 : Rect S1x32 := Rect.unit (s := S1x32) ![0, 0] S1x32.size inb_S1x32_S1x32_0_0

def out1_3 (x0 : Vec F S10000x32 .f32) (x1 : Vec F S10000x1 .f32) (x2 : Vec F S1x32 .f32) : Vec F S10000x32 .f32 :=
  View.canon [⟨r1_0, k1_pay1 (View.ld x0 r1_0) (View.ld x1 r1_1) (View.ld x2 r1_2)⟩]

/-- The body reads its three inputs whole and stores one payload over the whole output. -/
theorem sound_kernel1 (c : Dev nD) (E : Set ℕ) (i : grid1.Coords)
    (arg0 : Memref sig .tc .vmem S10000x32 .f32) (harg0 : arg0.IsWhole) (arg1 : Memref sig .tc .vmem S10000x1 .f32) (harg1 : arg1.IsWhole)
    (arg2 : Memref sig .tc .vmem S1x32 .f32) (harg2 : arg2.IsWhole) (arg3 : Memref sig .tc .vmem S10000x32 .f32) (harg3 : arg3.IsWhole)
    (x0 : Vec F S10000x32 .f32) (x1 : Vec F S10000x1 .f32) (x2 : Vec F S1x32 .f32) (x3 : Vec F S10000x32 .f32) (K : PUnit → sProp 𝕄) :
    iprop(owns c arg0 fullShare x0 ∗ owns c arg1 fullShare x1 ∗ owns c arg2 fullShare x2 ∗ owns c arg3 fullShare x3
        ∗ (iprop(owns c arg0 fullShare x0 ∗ owns c arg1 fullShare x1 ∗ owns c arg2 fullShare x2 ∗ owns c arg3 fullShare (out1_3 x0 x1 x2)) -∗ K ⟨⟩))
      ⊢ wp frame (wpE defs₀ Variants.none c none) E (cc1__finalize_kernel i arg0 harg0 arg1 harg1 arg2 harg2 arg3 harg3) K := by
  simp only [cc1__finalize_kernel_eq_skeleton]; unfold cc1__finalize_kernel_skel owns
  iintro ⟨⟨%f0, %hf0, H0⟩, ⟨%f1, %hf1, H1⟩, ⟨%f2, %hf2, H2⟩, ⟨%f3, -, H3⟩, Hk⟩
  subst hf0 hf1 hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr; swap; · iexact H3
  ipureintro
  exact View.read_writes_eq_canon _ _ _ (View.cover_of_tiled _ S10000x32.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

theorem after1_3 (c : Dev nD) (t : Fin cfg1.N) :
    (dat1 V c).after 3 t = out1_3 (iblk1 V c 0 t) (iblk1 V c 1 t) (iblk1 V c 2 t) := by dsimp only [dat1]

/-- The body's triple at a point's blocks, with `R` and `S` framed. -/
theorem sound_body1 (c : Dev nD) (t : Fin cfg1.N) (R S : sProp 𝕄) :
    iprop(R ∗ S ∗ (∃ d, owns c (st1_0 t) fullShare ((dat1 V c).before 0 t d)) ∗ (∃ d, owns c (st1_1 t) fullShare ((dat1 V c).before 1 t d))
        ∗ (∃ d, owns c (st1_2 t) fullShare ((dat1 V c).before 2 t d)) ∗ (∃ d, owns c (st1_3 t) fullShare ((dat1 V c).before 3 t d)))
      ⊢ wp frame (wpE defs₀ Variants.none c none) Set.univ (bodyAt1 t) fun _ =>
        iprop(R ∗ S ∗ owns c (st1_0 t) fullShare (iblk1 V c 0 t) ∗ owns c (st1_1 t) fullShare (iblk1 V c 1 t)
          ∗ owns c (st1_2 t) fullShare (iblk1 V c 2 t) ∗ owns c (st1_3 t) fullShare ((dat1 V c).after 3 t)) := by
  have hb : (∀ d, (dat1 V c).before 0 t d = iblk1 V c 0 t) ∧ (∀ d, (dat1 V c).before 1 t d = iblk1 V c 1 t)
      ∧ ∀ d, (dat1 V c).before 2 t d = iblk1 V c 2 t := by
    refine ⟨?_, ?_, ?_⟩ <;> exact (dat1 V c).before_in_eq_fetched _ rfl (fun _ => rfl) (fun _ _ _ => rfl) (fun _ => rfl) t
  simp only [hb, after1_3]
  iintro ⟨HR, HS, ⟨%d0, H0⟩, ⟨%d1, H1⟩, ⟨%d2, H2⟩, ⟨%d3, H3⟩⟩
  iapply sound_kernel1
  iframe H0 H1 H2 H3
  iintro H
  iframe

theorem body_obligation1 (c : Dev nD) : BodyObligation (dat1 (F := F) V c) (defs₀ (F := F)) Variants.none () Set.univ := fun t => by
  rw [bigSep_W1, bigSep_W1]
  exact sound_body1 V c t _ _

end Cert.KernelIdeal.Fr
-- ==== Proof.KI.T2.lean ====
import proofs.«424855_j19189913879214_2_alg».proof.Proof.Gen.KernelIdeal.Launch
import proofs.«424855_j19189913879214_2_alg».proof.Proof.Gen.KernelIdeal.Skeleton
import proofs.«424855_j19189913879214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S10000x32 := Rect.unit (s := S10000x32) ![0, 0] S10000x32.size inb_S10000x32_S10000x32_0_0
abbrev r2_1 : Rect S10000x1 := Rect.unit (s := S10000x1) ![0, 0] S10000x1.size inb_S10000x1_S10000x1_0_0
abbrev r2_2 : Rect S32x32 := Rect.unit (s := S32x32) ![0, 0] S32x32.size inb_S32x32_S32x32_0_0
abbrev r2_3 : Rect S10000x32 := Rect.unit (s := S10000x32) ![0, 0] S10000x32.size inb_S10000x32_S10000x32_0_0

def out2_3 (x0 : Vec F S10000x32 .f32) (x1 : Vec F S10000x1 .f32) (x2 : Vec F S32x32 .f32) : Vec F S10000x32 .f32 :=
  View.canon [⟨r2_3, k2_pay1 (View.ld x0 r2_0) (View.ld x1 r2_1) (View.ld x2 r2_2)⟩]

/-- The body reads its three inputs whole and stores one payload over the whole output. -/
theorem sound_kernel2 (c : Dev nD) (E : Set ℕ) (i : grid2.Coords)
    (arg0 : Memref sig .tc .vmem S10000x32 .f32) (harg0 : arg0.IsWhole) (arg1 : Memref sig .tc .vmem S10000x1 .f32) (harg1 : arg1.IsWhole)
    (arg2 : Memref sig .tc .vmem S32x32 .f32) (harg2 : arg2.IsWhole) (arg3 : Memref sig .tc .vmem S10000x32 .f32) (harg3 : arg3.IsWhole)
    (x0 : Vec F S10000x32 .f32) (x1 : Vec F S10000x1 .f32) (x2 : Vec F S32x32 .f32) (x3 : Vec F S10000x32 .f32) (K : PUnit → sProp 𝕄) :
    iprop(owns c arg0 fullShare x0 ∗ owns c arg1 fullShare x1 ∗ owns c arg2 fullShare x2 ∗ owns c arg3 fullShare x3
        ∗ (iprop(owns c arg0 fullShare x0 ∗ owns c arg1 fullShare x1 ∗ owns c arg2 fullShare x2 ∗ owns c arg3 fullShare (out2_3 x0 x1 x2)) -∗ K ⟨⟩))
      ⊢ wp frame (wpE defs₀ Variants.none c none) E (cc2__transform_kernel i arg0 harg0 arg1 harg1 arg2 harg2 arg3 harg3) K := by
  simp only [cc2__transform_kernel_eq_skeleton]; unfold cc2__transform_kernel_skel owns
  iintro ⟨⟨%f0, %hf0, H0⟩, ⟨%f1, %hf1, H1⟩, ⟨%f2, %hf2, H2⟩, ⟨%f3, -, H3⟩, Hk⟩
  subst hf0 hf1 hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr; swap; · iexact H3
  ipureintro
  exact View.read_writes_eq_canon _ _ _ (View.cover_of_tiled _ S10000x32.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2_3 (c : Dev nD) (t : Fin cfg2.N) :
    (dat2 V c).after 3 t = out2_3 (iblk2 V c 0 t) (iblk2 V c 1 t) (iblk2 V c 2 t) := by dsimp only [dat2]

/-- The body's triple at a point's blocks, with `R` and `S` framed. -/
theorem sound_body2 (c : Dev nD) (t : Fin cfg2.N) (R S : sProp 𝕄) :
    iprop(R ∗ S ∗ (∃ d, owns c (st2_0 t) fullShare ((dat2 V c).before 0 t d)) ∗ (∃ d, owns c (st2_1 t) fullShare ((dat2 V c).before 1 t d))
        ∗ (∃ d, owns c (st2_2 t) fullShare ((dat2 V c).before 2 t d)) ∗ (∃ d, owns c (st2_3 t) fullShare ((dat2 V c).before 3 t d)))
      ⊢ wp frame (wpE defs₀ Variants.none c none) Set.univ (bodyAt2 t) fun _ =>
        iprop(R ∗ S ∗ owns c (st2_0 t) fullShare (iblk2 V c 0 t) ∗ owns c (st2_1 t) fullShare (iblk2 V c 1 t)
          ∗ owns c (st2_2 t) fullShare (iblk2 V c 2 t) ∗ owns c (st2_3 t) fullShare ((dat2 V c).after 3 t)) := by
  have hb : (∀ d, (dat2 V c).before 0 t d = iblk2 V c 0 t) ∧ (∀ d, (dat2 V c).before 1 t d = iblk2 V c 1 t)
      ∧ ∀ d, (dat2 V c).before 2 t d = iblk2 V c 2 t := by
    refine ⟨?_, ?_, ?_⟩ <;> exact (dat2 V c).before_in_eq_fetched _ rfl (fun _ => rfl) (fun _ _ _ => rfl) (fun _ => rfl) t
  simp only [hb, after2_3]
  iintro ⟨HR, HS, ⟨%d0, H0⟩, ⟨%d1, H1⟩, ⟨%d2, H2⟩, ⟨%d3, H3⟩⟩
  iapply sound_kernel2
  iframe H0 H1 H2 H3
  iintro H
  iframe

theorem body_obligation2 (c : Dev nD) : BodyObligation (dat2 (F := F) V c) (defs₀ (F := F)) Variants.none () Set.univ := fun t => by
  rw [bigSep_W2, bigSep_W2]
  exact sound_body2 V c t _ _

end Cert.KernelIdeal.Fr
-- ==== Proof.KI.F3.lean ====
import proofs.«424855_j19189913879214_2_alg».proof.Proof.Gen.KernelIdeal.Launch
import proofs.«424855_j19189913879214_2_alg».proof.Proof.Gen.KernelIdeal.Skeleton
import proofs.«424855_j19189913879214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x32 := Rect.unit (s := S10000x32) ![0, 0] S10000x32.size inb_S10000x32_S10000x32_0_0
abbrev r3_1 : Rect S10000x1 := Rect.unit (s := S10000x1) ![0, 0] S10000x1.size inb_S10000x1_S10000x1_0_0
abbrev r3_2 : Rect S1x32 := Rect.unit (s := S1x32) ![0, 0] S1x32.size inb_S1x32_S1x32_0_0

def out3_3 (x0 : Vec F S10000x32 .f32) (x1 : Vec F S10000x1 .f32) (x2 : Vec F S1x32 .f32) : Vec F S10000x32 .f32 :=
  View.canon [⟨r3_0, k3_pay1 (View.ld x0 r3_0) (View.ld x1 r3_1) (View.ld x2 r3_2)⟩]

/-- The body reads its three inputs whole and stores one payload over the whole output. -/
theorem sound_kernel3 (c : Dev nD) (E : Set ℕ) (i : grid3.Coords)
    (arg0 : Memref sig .tc .vmem S10000x32 .f32) (harg0 : arg0.IsWhole) (arg1 : Memref sig .tc .vmem S10000x1 .f32) (harg1 : arg1.IsWhole)
    (arg2 : Memref sig .tc .vmem S1x32 .f32) (harg2 : arg2.IsWhole) (arg3 : Memref sig .tc .vmem S10000x32 .f32) (harg3 : arg3.IsWhole)
    (x0 : Vec F S10000x32 .f32) (x1 : Vec F S10000x1 .f32) (x2 : Vec F S1x32 .f32) (x3 : Vec F S10000x32 .f32) (K : PUnit → sProp 𝕄) :
    iprop(owns c arg0 fullShare x0 ∗ owns c arg1 fullShare x1 ∗ owns c arg2 fullShare x2 ∗ owns c arg3 fullShare x3
        ∗ (iprop(owns c arg0 fullShare x0 ∗ owns c arg1 fullShare x1 ∗ owns c arg2 fullShare x2 ∗ owns c arg3 fullShare (out3_3 x0 x1 x2)) -∗ K ⟨⟩))
      ⊢ wp frame (wpE defs₀ Variants.none c none) E (cc3__finalize_kernel i arg0 harg0 arg1 harg1 arg2 harg2 arg3 harg3) K := by
  simp only [cc3__finalize_kernel_eq_skeleton]; unfold cc3__finalize_kernel_skel owns
  iintro ⟨⟨%f0, %hf0, H0⟩, ⟨%f1, %hf1, H1⟩, ⟨%f2, %hf2, H2⟩, ⟨%f3, -, H3⟩, Hk⟩
  subst hf0 hf1 hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr; swap; · iexact H3
  ipureintro
  exact View.read_writes_eq_canon _ _ _ (View.cover_of_tiled _ S10000x32.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl

theorem after3_3 (c : Dev nD) (t : Fin cfg3.N) :
    (dat3 V c).after 3 t = out3_3 (iblk3 V c 0 t) (iblk3 V c 1 t) (iblk3 V c 2 t) := by dsimp only [dat3]

/-- The body's triple at a point's blocks, with `R` and `S` framed. -/
theorem sound_body3 (c : Dev nD) (t : Fin cfg3.N) (R S : sProp 𝕄) :
    iprop(R ∗ S ∗ (∃ d, owns c (st3_0 t) fullShare ((dat3 V c).before 0 t d)) ∗ (∃ d, owns c (st3_1 t) fullShare ((dat3 V c).before 1 t d))
        ∗ (∃ d, owns c (st3_2 t) fullShare ((dat3 V c).before 2 t d)) ∗ (∃ d, owns c (st3_3 t) fullShare ((dat3 V c).before 3 t d)))
      ⊢ wp frame (wpE defs₀ Variants.none c none) Set.univ (bodyAt3 t) fun _ =>
        iprop(R ∗ S ∗ owns c (st3_0 t) fullShare (iblk3 V c 0 t) ∗ owns c (st3_1 t) fullShare (iblk3 V c 1 t)
          ∗ owns c (st3_2 t) fullShare (iblk3 V c 2 t) ∗ owns c (st3_3 t) fullShare ((dat3 V c).after 3 t)) := by
  have hb : (∀ d, (dat3 V c).before 0 t d = iblk3 V c 0 t) ∧ (∀ d, (dat3 V c).before 1 t d = iblk3 V c 1 t)
      ∧ ∀ d, (dat3 V c).before 2 t d = iblk3 V c 2 t := by
    refine ⟨?_, ?_, ?_⟩ <;> exact (dat3 V c).before_in_eq_fetched _ rfl (fun _ => rfl) (fun _ _ _ => rfl) (fun _ => rfl) t
  simp only [hb, after3_3]
  iintro ⟨HR, HS, ⟨%d0, H0⟩, ⟨%d1, H1⟩, ⟨%d2, H2⟩, ⟨%d3, H3⟩⟩
  iapply sound_kernel3
  iframe H0 H1 H2 H3
  iintro H
  iframe

theorem body_obligation3 (c : Dev nD) : BodyObligation (dat3 (F := F) V c) (defs₀ (F := F)) Variants.none () Set.univ := fun t => by
  rw [bigSep_W3, bigSep_W3]
  exact sound_body3 V c t _ _

end Cert.KernelIdeal.Fr
-- ==== Proof.KI.T4.lean ====
import proofs.«424855_j19189913879214_2_alg».proof.Proof.Gen.KernelIdeal.Launch
import proofs.«424855_j19189913879214_2_alg».proof.Proof.Gen.KernelIdeal.Skeleton
import proofs.«424855_j19189913879214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S10000x32 := Rect.unit (s := S10000x32) ![0, 0] S10000x32.size inb_S10000x32_S10000x32_0_0
abbrev r4_1 : Rect S10000x1 := Rect.unit (s := S10000x1) ![0, 0] S10000x1.size inb_S10000x1_S10000x1_0_0
abbrev r4_2 : Rect S32x32 := Rect.unit (s := S32x32) ![0, 0] S32x32.size inb_S32x32_S32x32_0_0
abbrev r4_3 : Rect S10000x32 := Rect.unit (s := S10000x32) ![0, 0] S10000x32.size inb_S10000x32_S10000x32_0_0

def out4_3 (x0 : Vec F S10000x32 .f32) (x1 : Vec F S10000x1 .f32) (x2 : Vec F S32x32 .f32) : Vec F S10000x32 .f32 :=
  View.canon [⟨r4_3, k4_pay1 (View.ld x0 r4_0) (View.ld x1 r4_1) (View.ld x2 r4_2)⟩]

/-- The body reads its three inputs whole and stores one payload over the whole output. -/
theorem sound_kernel4 (c : Dev nD) (E : Set ℕ) (i : grid4.Coords)
    (arg0 : Memref sig .tc .vmem S10000x32 .f32) (harg0 : arg0.IsWhole) (arg1 : Memref sig .tc .vmem S10000x1 .f32) (harg1 : arg1.IsWhole)
    (arg2 : Memref sig .tc .vmem S32x32 .f32) (harg2 : arg2.IsWhole) (arg3 : Memref sig .tc .vmem S10000x32 .f32) (harg3 : arg3.IsWhole)
    (x0 : Vec F S10000x32 .f32) (x1 : Vec F S10000x1 .f32) (x2 : Vec F S32x32 .f32) (x3 : Vec F S10000x32 .f32) (K : PUnit → sProp 𝕄) :
    iprop(owns c arg0 fullShare x0 ∗ owns c arg1 fullShare x1 ∗ owns c arg2 fullShare x2 ∗ owns c arg3 fullShare x3
        ∗ (iprop(owns c arg0 fullShare x0 ∗ owns c arg1 fullShare x1 ∗ owns c arg2 fullShare x2 ∗ owns c arg3 fullShare (out4_3 x0 x1 x2)) -∗ K ⟨⟩))
      ⊢ wp frame (wpE defs₀ Variants.none c none) E (cc4__transform_kernel i arg0 harg0 arg1 harg1 arg2 harg2 arg3 harg3) K := by
  simp only [cc4__transform_kernel_eq_skeleton]; unfold cc4__transform_kernel_skel owns
  iintro ⟨⟨%f0, %hf0, H0⟩, ⟨%f1, %hf1, H1⟩, ⟨%f2, %hf2, H2⟩, ⟨%f3, -, H3⟩, Hk⟩
  subst hf0 hf1 hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr; swap; · iexact H3
  ipureintro
  exact View.read_writes_eq_canon _ _ _ (View.cover_of_tiled _ S10000x32.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl

theorem after4_3 (c : Dev nD) (t : Fin cfg4.N) :
    (dat4 V c).after 3 t = out4_3 (iblk4 V c 0 t) (iblk4 V c 1 t) (iblk4 V c 2 t) := by dsimp only [dat4]

/-- The body's triple at a point's blocks, with `R` and `S` framed. -/
theorem sound_body4 (c : Dev nD) (t : Fin cfg4.N) (R S : sProp 𝕄) :
    iprop(R ∗ S ∗ (∃ d, owns c (st4_0 t) fullShare ((dat4 V c).before 0 t d)) ∗ (∃ d, owns c (st4_1 t) fullShare ((dat4 V c).before 1 t d))
        ∗ (∃ d, owns c (st4_2 t) fullShare ((dat4 V c).before 2 t d)) ∗ (∃ d, owns c (st4_3 t) fullShare ((dat4 V c).before 3 t d)))
      ⊢ wp frame (wpE defs₀ Variants.none c none) Set.univ (bodyAt4 t) fun _ =>
        iprop(R ∗ S ∗ owns c (st4_0 t) fullShare (iblk4 V c 0 t) ∗ owns c (st4_1 t) fullShare (iblk4 V c 1 t)
          ∗ owns c (st4_2 t) fullShare (iblk4 V c 2 t) ∗ owns c (st4_3 t) fullShare ((dat4 V c).after 3 t)) := by
  have hb : (∀ d, (dat4 V c).before 0 t d = iblk4 V c 0 t) ∧ (∀ d, (dat4 V c).before 1 t d = iblk4 V c 1 t)
      ∧ ∀ d, (dat4 V c).before 2 t d = iblk4 V c 2 t := by
    refine ⟨?_, ?_, ?_⟩ <;> exact (dat4 V c).before_in_eq_fetched _ rfl (fun _ => rfl) (fun _ _ _ => rfl) (fun _ => rfl) t
  simp only [hb, after4_3]
  iintro ⟨HR, HS, ⟨%d0, H0⟩, ⟨%d1, H1⟩, ⟨%d2, H2⟩, ⟨%d3, H3⟩⟩
  iapply sound_kernel4
  iframe H0 H1 H2 H3
  iintro H
  iframe

theorem body_obligation4 (c : Dev nD) : BodyObligation (dat4 (F := F) V c) (defs₀ (F := F)) Variants.none () Set.univ := fun t => by
  rw [bigSep_W4, bigSep_W4]
  exact sound_body4 V c t _ _

end Cert.KernelIdeal.Fr
-- ==== Proof.KI.F5.lean ====
import proofs.«424855_j19189913879214_2_alg».proof.Proof.Gen.KernelIdeal.Launch
import proofs.«424855_j19189913879214_2_alg».proof.Proof.Gen.KernelIdeal.Skeleton
import proofs.«424855_j19189913879214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S10000x32 := Rect.unit (s := S10000x32) ![0, 0] S10000x32.size inb_S10000x32_S10000x32_0_0
abbrev r5_1 : Rect S10000x1 := Rect.unit (s := S10000x1) ![0, 0] S10000x1.size inb_S10000x1_S10000x1_0_0
abbrev r5_2 : Rect S1x32 := Rect.unit (s := S1x32) ![0, 0] S1x32.size inb_S1x32_S1x32_0_0

def out5_3 (x0 : Vec F S10000x32 .f32) (x1 : Vec F S10000x1 .f32) (x2 : Vec F S1x32 .f32) : Vec F S10000x32 .f32 :=
  View.canon [⟨r5_0, k5_pay1 (View.ld x0 r5_0) (View.ld x1 r5_1) (View.ld x2 r5_2)⟩]

/-- The body reads its three inputs whole and stores one payload over the whole output. -/
theorem sound_kernel5 (c : Dev nD) (E : Set ℕ) (i : grid5.Coords)
    (arg0 : Memref sig .tc .vmem S10000x32 .f32) (harg0 : arg0.IsWhole) (arg1 : Memref sig .tc .vmem S10000x1 .f32) (harg1 : arg1.IsWhole)
    (arg2 : Memref sig .tc .vmem S1x32 .f32) (harg2 : arg2.IsWhole) (arg3 : Memref sig .tc .vmem S10000x32 .f32) (harg3 : arg3.IsWhole)
    (x0 : Vec F S10000x32 .f32) (x1 : Vec F S10000x1 .f32) (x2 : Vec F S1x32 .f32) (x3 : Vec F S10000x32 .f32) (K : PUnit → sProp 𝕄) :
    iprop(owns c arg0 fullShare x0 ∗ owns c arg1 fullShare x1 ∗ owns c arg2 fullShare x2 ∗ owns c arg3 fullShare x3
        ∗ (iprop(owns c arg0 fullShare x0 ∗ owns c arg1 fullShare x1 ∗ owns c arg2 fullShare x2 ∗ owns c arg3 fullShare (out5_3 x0 x1 x2)) -∗ K ⟨⟩))
      ⊢ wp frame (wpE defs₀ Variants.none c none) E (cc5__finalize_kernel i arg0 harg0 arg1 harg1 arg2 harg2 arg3 harg3) K := by
  simp only [cc5__finalize_kernel_eq_skeleton]; unfold cc5__finalize_kernel_skel owns
  iintro ⟨⟨%f0, %hf0, H0⟩, ⟨%f1, %hf1, H1⟩, ⟨%f2, %hf2, H2⟩, ⟨%f3, -, H3⟩, Hk⟩
  subst hf0 hf1 hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr; swap; · iexact H3
  ipureintro
  exact View.read_writes_eq_canon _ _ _ (View.cover_of_tiled _ S10000x32.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := rfl

theorem after5_3 (c : Dev nD) (t : Fin cfg5.N) :
    (dat5 V c).after 3 t = out5_3 (iblk5 V c 0 t) (iblk5 V c 1 t) (iblk5 V c 2 t) := by dsimp only [dat5]

/-- The body's triple at a point's blocks, with `R` and `S` framed. -/
theorem sound_body5 (c : Dev nD) (t : Fin cfg5.N) (R S : sProp 𝕄) :
    iprop(R ∗ S ∗ (∃ d, owns c (st5_0 t) fullShare ((dat5 V c).before 0 t d)) ∗ (∃ d, owns c (st5_1 t) fullShare ((dat5 V c).before 1 t d))
        ∗ (∃ d, owns c (st5_2 t) fullShare ((dat5 V c).before 2 t d)) ∗ (∃ d, owns c (st5_3 t) fullShare ((dat5 V c).before 3 t d)))
      ⊢ wp frame (wpE defs₀ Variants.none c none) Set.univ (bodyAt5 t) fun _ =>
        iprop(R ∗ S ∗ owns c (st5_0 t) fullShare (iblk5 V c 0 t) ∗ owns c (st5_1 t) fullShare (iblk5 V c 1 t)
          ∗ owns c (st5_2 t) fullShare (iblk5 V c 2 t) ∗ owns c (st5_3 t) fullShare ((dat5 V c).after 3 t)) := by
  have hb : (∀ d, (dat5 V c).before 0 t d = iblk5 V c 0 t) ∧ (∀ d, (dat5 V c).before 1 t d = iblk5 V c 1 t)
      ∧ ∀ d, (dat5 V c).before 2 t d = iblk5 V c 2 t := by
    refine ⟨?_, ?_, ?_⟩ <;> exact (dat5 V c).before_in_eq_fetched _ rfl (fun _ => rfl) (fun _ _ _ => rfl) (fun _ => rfl) t
  simp only [hb, after5_3]
  iintro ⟨HR, HS, ⟨%d0, H0⟩, ⟨%d1, H1⟩, ⟨%d2, H2⟩, ⟨%d3, H3⟩⟩
  iapply sound_kernel5
  iframe H0 H1 H2 H3
  iintro H
  iframe

theorem body_obligation5 (c : Dev nD) : BodyObligation (dat5 (F := F) V c) (defs₀ (F := F)) Variants.none () Set.univ := fun t => by
  rw [bigSep_W5, bigSep_W5]
  exact sound_body5 V c t _ _

end Cert.KernelIdeal.Fr
-- ==== Proof.KI.PoolRec.lean ====
import proofs.«424855_j19189913879214_2_alg».proof.Proof.Gen.KernelIdeal.Skeleton

noncomputable section

namespace Cert.KernelIdeal.Fr

open Idealize.ShloMosaic Cert.KernelIdeal Cert.KernelIdeal.Gen

variable {F : FTy → Type} [FloatOps F]

/-- The per-graph feature sums after point `n`: every point adds its block's contribution, the first one to zero. -/
def accRec (gb : Nat → Vec F S10000x1 .i32) (xb : Nat → Vec F S10000x32 .f32) : Nat → Vec F S32x64 .f32
  | 0 => k6_pay4 (gb 0) (xb 0) (k6_pay1 (F := F))
  | n + 1 => k6_pay4 (gb (n + 1)) (xb (n + 1)) (accRec gb xb n)

/-- The per-graph node counts after point `n`, accumulated the same way. -/
def cntRec (gb : Nat → Vec F S10000x1 .i32) : Nat → Vec F S1x64 .f32
  | 0 => k6_pay5 (gb 0) (k6_pay2 (F := F))
  | n + 1 => k6_pay5 (gb (n + 1)) (cntRec gb n)

/-- What the last of the ten points stores: the per-graph means through the final linear layer. -/
def poolOut (gb : Nat → Vec F S10000x1 .i32) (xb : Nat → Vec F S10000x32 .f32) (we : Vec F S32x16 .f32) (be : Vec F S1x16 .f32) :
    Vec F S64x16 .f32 :=
  k6_pay6 (cntRec gb 9) (accRec gb xb 9) we be

end Cert.KernelIdeal.Fr

end
-- ==== Proof.KI.P6.lean ====
import proofs.«424855_j19189913879214_2_alg».proof.Proof.Gen.KernelIdeal.Launch
import proofs.«424855_j19189913879214_2_alg».proof.Proof.Gen.KernelIdeal.Skeleton
import proofs.«424855_j19189913879214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«424855_j19189913879214_2_alg».proof.Proof.KI.PoolRec

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def gblk6 (c : Dev nD) (n : Nat) : Vec F S10000x1 .i32 :=
  if h : n < cfg6.N then iblk6 V c 1 ⟨n, h⟩ else iblk6 V c 1 t6_0

def xblk6 (c : Dev nD) (n : Nat) : Vec F S10000x32 .f32 :=
  if h : n < cfg6.N then iblk6 V c 0 ⟨n, h⟩ else iblk6 V c 0 t6_0

theorem gblk6_val (c : Dev nD) (t : Fin cfg6.N) : gblk6 V c t.val = iblk6 V c 1 t := by
  unfold gblk6; rw [dif_pos t.isLt]

theorem xblk6_val (c : Dev nD) (t : Fin cfg6.N) : xblk6 V c t.val = iblk6 V c 0 t := by
  unfold xblk6; rw [dif_pos t.isLt]

abbrev cond6_0 (i : grid6.Coords) : Prop :=
  (Scalar.cmpi .ne (Scalar.extui (Scalar.cmpi .eq (BitVec.ofNat 32 (i 0).val) 0#32)) 0#32) = 1#1

/-- The reset is taken at the first point only, the result stored at the last only. -/
theorem hcond6 : ∀ t : Fin grid6.N, (cond6_0 (grid6.coords t) ↔ t.val = 0) ∧ (k6_cond2 (grid6.coords t) = 1#1 ↔ t.val = 9) := by
  decide +kernel

theorem idle6_4 : ∀ t : Fin grid6.N, t.val ≠ 9 → cfg6.idle 4 (grid6.coords t) = true ∧ (cfg6.win 4).flush t = false := by
  decide +kernel
theorem live6_4 : ∀ t : Fin grid6.N, t.val = 9 → cfg6.idle 4 (grid6.coords t) = false := by decide +kernel

/-- Before point `n` the two accumulators hold what point `n - 1` left (anything before the first point). -/
def PhiS6 (c : Dev nD) (n : ℕ) : sProp 𝕄 :=
  iprop(∃ a k, ⌜n ≠ 0 → a = accRec (gblk6 V c) (xblk6 V c) (n - 1) ∧ k = cntRec (gblk6 V c) (n - 1)⌝
    ∗ owns c.tc (Memref.whole cc6_scratch0) fullShare a ∗ owns c.tc (Memref.whole cc6_scratch1) fullShare k
    ∗ Pipeline.scopedRestBut (Ix := Unit) (Name := ℕ) (U := UR sig nD τ) (Lvl := ℕ) (Val := Elt F) spec6 c [cc6_scratch0, cc6_scratch1]
    ∗ (∃ r, prngReg c r))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => poolOut (gblk6 V c) (xblk6 V c) (iblk6 V c 2 t) (iblk6 V c 3 t)
  Φ t := PhiS6 V c t.val
  q _ := fullShare
  owed _ := 0

theorem A_eq6 (c : Dev nD) (w : Fin cfg6.W) : (dat6 V c).A w = V c (Pipeline.arrRef spec6 w) := rfl

theorem after6_4 (c : Dev nD) (t : Fin cfg6.N) :
    (dat6 V c).after 4 t = poolOut (gblk6 V c) (xblk6 V c) (iblk6 V c 2 t) (iblk6 V c 3 t) := rfl

theorem hz2 : (![0, 0] : Fin 2 → ℕ) = fun _ => 0 := by funext a; fin_cases a <;> rfl

/-- A buffer last stored through its whole rectangle reads as that store's payload. -/
theorem read_stored {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons.mpr (Or.inl rfl), View.mem_set_unit_zero h inb y⟩).trans
    (View.canon_cons_unit_zero h inb w L)

/-- The body at any point: under `p0` the accumulators restart from zero, under `p1` the result is stored; never both. -/
theorem run6 (c : Dev nD) (E : Set ℕ) (i : grid6.Coords)
    (arg1 : Memref sig .tc .vmem S10000x32 .f32) (harg1 : arg1.IsWhole) (arg2 : Memref sig .tc .vmem S10000x1 .i32) (harg2 : arg2.IsWhole)
    (arg3 : Memref sig .tc .vmem S32x16 .f32) (harg3 : arg3.IsWhole) (arg4 : Memref sig .tc .vmem S1x16 .f32) (harg4 : arg4.IsWhole)
    (arg5 : Memref sig .tc .vmem S64x16 .f32) (harg5 : arg5.IsWhole) (arg6 : Memref sig .tc .vmem S32x64 .f32) (harg6 : arg6.IsWhole)
    (arg7 : Memref sig .tc .vmem S1x64 .f32) (harg7 : arg7.IsWhole)
    {p0 p1 : Prop} [Decidable p0] [Decidable p1] (h0 : cond6_0 i ↔ p0) (h1 : k6_cond2 i = 1#1 ↔ p1) (hne : ¬(p0 ∧ p1))
    (x : Vec F S10000x32 .f32) (g : Vec F S10000x1 .i32) (we : Vec F S32x16 .f32) (be : Vec F S1x16 .f32) (o : Vec F S64x16 .f32)
    (a A : Vec F S32x64 .f32) (n N : Vec F S1x64 .f32)
    (hA : A = k6_pay4 g x (if p0 then k6_pay1 else a)) (hN : N = k6_pay5 g (if p0 then k6_pay2 else n)) (K : PUnit → sProp 𝕄) :
    iprop(owns c.tc arg1 fullShare x ∗ owns c.tc arg2 fullShare g ∗ owns c.tc arg3 fullShare we ∗ owns c.tc arg4 fullShare be
        ∗ owns c.tc arg5 fullShare o ∗ owns c.tc arg6 fullShare a ∗ owns c.tc arg7 fullShare n
        ∗ (iprop(owns c.tc arg1 fullShare x ∗ owns c.tc arg2 fullShare g ∗ owns c.tc arg3 fullShare we ∗ owns c.tc arg4 fullShare be
            ∗ owns c.tc arg5 fullShare (if p1 then k6_pay6 N A we be else o) ∗ owns c.tc arg6 fullShare A ∗ owns c.tc arg7 fullShare N) -∗ K ⟨⟩))
      ⊢ wp frame (wpE (defs₀ (F := F)) Variants.none c none) E (cc6__pool_kernel i arg1 harg1 arg2 harg2 arg3 harg3 arg4 harg4 arg5 harg5 arg6 harg6 arg7 harg7) K := by
  subst hA hN
  simp only [cc6__pool_kernel_eq_skeleton]; unfold cc6__pool_kernel_skel owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  subst e1 e2 e3 e4 e5 e6 e7
  by_cases hp0 : p0 <;> by_cases hp1 : p1
  · exact absurd ⟨hp0, hp1⟩ hne
  all_goals
    simp only [hp0, hp1, if_true, if_false]
    rw [← h0] at hp0; rw [← h1] at hp1
    sl_exec
    sl_step
    iapply Hk
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    isplitl [H6]; iexists _; isplitr; swap; iexact H6; rotate_left
    iexists _; isplitr; swap; iexact H7
    all_goals
      ipureintro; try sl_unfold_words
      first
        | exact (read_stored _ _ hz2 _ _ _).trans (by
            simp only [View.readAt_eq_ld, View.ld_unit_zero (S := S10000x1) hz2, View.ld_unit_zero (S := S10000x32) hz2,
              View.ld_unit_zero (S := S32x64) hz2, View.ld_unit_zero (S := S1x64) hz2, View.ld_unit_zero (S := S32x16) hz2,
              View.ld_unit_zero (S := S1x16) hz2, View.readCov_unit_zero (S := S32x64) _ hz2, View.readCov_unit_zero (S := S1x64) _ hz2])
        | rfl

/-- The accumulators after point `n`, from what the point before left (from zero at the first point). -/
theorem accRec_step (gb : Nat → Vec F S10000x1 .i32) (xb : Nat → Vec F S10000x32 .f32) (n : ℕ) (a : Vec F S32x64 .f32)
    (h : n ≠ 0 → a = accRec gb xb (n - 1)) : accRec gb xb n = k6_pay4 (gb n) (xb n) (if n = 0 then k6_pay1 else a) := by
  cases n with
  | zero => rfl
  | succ m => rw [if_neg m.succ_ne_zero, h m.succ_ne_zero]; rfl

theorem cntRec_step (gb : Nat → Vec F S10000x1 .i32) (n : ℕ) (k : Vec F S1x64 .f32)
    (h : n ≠ 0 → k = cntRec gb (n - 1)) : cntRec gb n = k6_pay5 (gb n) (if n = 0 then k6_pay2 else k) := by
  cases n with
  | zero => rfl
  | succ m => rw [if_neg m.succ_ne_zero, h m.succ_ne_zero]; rfl

/-- The output buffer after a point: the pooled result at the last point, untouched elsewhere. -/
theorem leaves6_4 (c : Dev nD) (t : Fin cfg6.N) (d) :
    owns c.tc (st6_4 t) fullShare (if t.val = 9 then k6_pay6 (cntRec (gblk6 V c) t.val) (accRec (gblk6 V c) (xblk6 V c) t.val)
        (iblk6 V c 2 t) (iblk6 V c 3 t) else (dat6 V c).before 4 t d) ⊢ (dat6 V c).leavesExact 4 t := by
  by_cases h9 : t.val = 9
  · rw [if_pos h9, h9]; unfold Dat.leavesExact; rw [live6_4 t h9]; iintro H; iexact H
  · rw [if_neg h9, Dat.leavesExact_idle _ 4 t (idle6_4 t h9).1 (idle6_4 t h9).2]; iintro H; iexists d; iexact H

/-- The body obligation: the point's blocks in, the accumulators stepped, the output window as `leaves6_4` says. -/
theorem body_obligation6 (c : Dev nD) : BodyObligation (dat6 (F := F) V c) (defs₀ (F := F)) Variants.none () Set.univ := fun t => by
  have bf := fun w hw hl hc hk => (dat6 V c).before_in_eq_fetched w hw hl hc hk t
  rw [bigSep_W6, bigSep_W6, show (dat6 V c).Φ t.castSucc = PhiS6 V c t.val from rfl,
    show (dat6 V c).Φ t.succ = PhiS6 V c (t.val + 1) from rfl]
  simp only [bf 0 rfl (fun _ => rfl) (fun _ _ _ => rfl) (fun _ => rfl), bf 1 rfl (fun _ => rfl) (fun _ _ _ => rfl) (fun _ => rfl),
    bf 2 rfl (fun _ => rfl) (fun _ _ _ => rfl) (fun _ => rfl), bf 3 rfl (fun _ => rfl) (fun _ _ _ => rfl) (fun _ => rfl)]
  unfold PhiS6
  show _ ⊢ wp frame _ _ (bodyAt6 t) _
  iintro ⟨⟨%a, %k, %hak, HS0, HS1, HR, Hg⟩, Ho, ⟨%d0, H0⟩, ⟨%d1, H1⟩, ⟨%d2, H2⟩, ⟨%d3, H3⟩, ⟨%d4, H4⟩⟩
  iapply (run6 c Set.univ (grid6.coords t) _ _ _ _ _ _ _ _ _ _ _ _ _ _ (hcond6 t).1 (hcond6 t).2 (fun h => by omega)
    (iblk6 V c 0 t) (iblk6 V c 1 t) (iblk6 V c 2 t) (iblk6 V c 3 t) ((dat6 V c).before 4 t d4) a _ k _
    ((accRec_step _ _ _ a fun h => (hak h).1).trans (by rw [gblk6_val, xblk6_val]))
    ((cntRec_step _ _ k fun h => (hak h).2).trans (by rw [gblk6_val])) _)
  isplitl [H0]; · iexact H0
  isplitl [H1]; · iexact H1
  isplitl [H2]; · iexact H2
  isplitl [H3]; · iexact H3
  iframe H4 HS0 HS1
  iintro ⟨H0, H1, H2, H3, H4, HS0, HS1⟩
  isplitl [HS0 HS1 HR Hg]
  · iexists _, _; iframe HS0 HS1 HR Hg; ipureintro; exact fun _ => ⟨rfl, rfl⟩
  isplitl [Ho]; · iexact Ho
  isplitl [H0]; · iexact H0
  isplitl [H1]; · iexact H1
  isplitl [H2]; · iexact H2
  isplitl [H3]; · iexact H3
  iapply (leaves6_4 V c t d4); iexact H4

theorem Φ6_in (c : Dev nD) : (Pipeline.ΦA spec6 c : sProp 𝕄) ⊢ (dat6 V c).Φ 0 := by
  show _ ⊢ PhiS6 V c 0
  unfold Pipeline.ΦA PhiS6; rw [scopedRest6_split]; simp only [owns_whole]
  iintro ⟨⟨⟨⟨%a, HS0⟩, ⟨%k, HS1⟩⟩, HR⟩, Hg⟩
  iexists a, k; iframe HS0 HS1 HR Hg; ipureintro; exact fun h => absurd rfl h

theorem Φ6_out (c : Dev nD) : (dat6 V c).Φ (Fin.last _) ⊢ (Pipeline.ΦA spec6 c : sProp 𝕄) := by
  show PhiS6 V c _ ⊢ _
  unfold Pipeline.ΦA PhiS6; rw [scopedRest6_split]; simp only [owns_whole]
  iintro ⟨%a, %k, -, HS0, HS1, HR, Hg⟩
  iframe HR Hg
  isplitl [HS0]
  · iexists a; iexact HS0
  · iexists k; iexact HS1

end Cert.KernelIdeal.Fr

end
-- ==== Proof.KI.Fold.lean ====
import proofs.«424855_j19189913879214_2_alg».proof.Proof.KI.T0
import proofs.«424855_j19189913879214_2_alg».proof.Proof.KI.F1
import proofs.«424855_j19189913879214_2_alg».proof.Proof.KI.T2
import proofs.«424855_j19189913879214_2_alg».proof.Proof.KI.F3
import proofs.«424855_j19189913879214_2_alg».proof.Proof.KI.T4
import proofs.«424855_j19189913879214_2_alg».proof.Proof.KI.F5
import proofs.«424855_j19189913879214_2_alg».proof.Proof.KI.P6
import proofs.«424855_j19189913879214_2_alg».proof.Proof.Gen.KernelIdeal.Regions
import Idealize.ShloMosaic.Lib.Pipeline.FrameBody
import Idealize.ShloMosaic.Lib.Pipeline.RegionsLoop
import Idealize.ShloMosaic.Lib.Pipeline.FrameSuffix

noncomputable section

namespace Cert.KernelIdeal.Fr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
def W6 (c : Dev nD) : Valuation τ sig (Elt F) :=
  Pipeline.withArrays spec0 c (W5 m c) fun w => (dat0 (atTc (W5 m)) c).arrAt w cfg0.N
abbrev W7 : Dev nD → Valuation τ sig (Elt F) := fun c => StableHlo.after hostOps1 (W6 m c)
def W8 (c : Dev nD) : Valuation τ sig (Elt F) :=
  Pipeline.withArrays spec1 c (W7 m c) fun w => (dat1 (atTc (W7 m)) c).arrAt w cfg1.N
abbrev W9 : Dev nD → Valuation τ sig (Elt F) := fun c => StableHlo.after hostOps2 (W8 m c)
def W10 (c : Dev nD) : Valuation τ sig (Elt F) :=
  Pipeline.withArrays spec2 c (W9 m c) fun w => (dat2 (atTc (W9 m)) c).arrAt w cfg2.N
abbrev W11 : Dev nD → Valuation τ sig (Elt F) := fun c => StableHlo.after hostOps3 (W10 m c)
def W12 (c : Dev nD) : Valuation τ sig (Elt F) :=
  Pipeline.withArrays spec3 c (W11 m c) fun w => (dat3 (atTc (W11 m)) c).arrAt w cfg3.N
abbrev W13 : Dev nD → Valuation τ sig (Elt F) := fun c => StableHlo.after hostOps4 (W12 m c)
def W14 (c : Dev nD) : Valuation τ sig (Elt F) :=
  Pipeline.withArrays spec4 c (W13 m c) fun w => (dat4 (atTc (W13 m)) c).arrAt w cfg4.N
abbrev W15 : Dev nD → Valuation τ sig (Elt F) := fun c => StableHlo.after hostOps5 (W14 m c)
def W16 (c : Dev nD) : Valuation τ sig (Elt F) :=
  Pipeline.withArrays spec5 c (W15 m c) fun w => (dat5 (atTc (W15 m)) c).arrAt w cfg5.N
abbrev W17 : Dev nD → Valuation τ sig (Elt F) := fun c => StableHlo.after hostOps6 (W16 m c)
def W18 (c : Dev nD) : Valuation τ sig (Elt F) :=
  Pipeline.withArrays spec6 c (W17 m c) fun w => (dat6 (atTc (W17 m)) c).arrAt w cfg6.N

/-- A region leaves every buffer but its output array as it found it: an input window's array is never written. -/
theorem exit_keep {p : Fin 7} (launch : Pipeline.LaunchFacts (nD := nD) (τ := τ) cfgs p) (c : Dev nD) (Wi : Dev nD → Valuation τ sig (Elt F))
    (dat : Dat τ (Elt F) Unit ℕ (UR sig nD τ) ℕ (cfgs p) c) (hA : ∀ w, dat.A w = atTc Wi c (Pipeline.arrRef (cfgs p).spec w)) (bo : Ref sig .tc)
    (hbo : ∀ w, Pipeline.arrRef (cfgs p).spec w ≠ bo → ((cfgs p).win w).isOut = false) (b : Ref sig .tc) (hb : b ≠ bo) :
    Pipeline.withArrays (cfgs p).spec c (Wi c) (fun w => dat.arrAt w (cfgs p).N) (Proc.devRef .tc b) = Wi c (Proc.devRef .tc b) := by
  by_cases h : ∃ w, Pipeline.arrRef (cfgs p).spec w = b
  · obtain ⟨w, rfl⟩ := h
    exact (Pipeline.withArrays_arr _ launch.win.arr_inj c _ _ w).trans ((dat.arrAt_in w (hbo w hb) _).trans (hA w))
  · exact Pipeline.withArrays_of_ne _ c _ _ b fun w e => h ⟨w, e⟩

theorem W6_arr (c : Dev nD) (w : Fin cfg0.W) : W6 m c (Proc.devRef .tc (Pipeline.arrRef spec0 w)) = (dat0 (atTc (W5 m)) c).arrAt w cfg0.N :=
  Pipeline.withArrays_arr spec0 launch0.win.arr_inj c _ _ w
theorem W8_arr (c : Dev nD) (w : Fin cfg1.W) : W8 m c (Proc.devRef .tc (Pipeline.arrRef spec1 w)) = (dat1 (atTc (W7 m)) c).arrAt w cfg1.N :=
  Pipeline.withArrays_arr spec1 launch1.win.arr_inj c _ _ w
theorem W10_arr (c : Dev nD) (w : Fin cfg2.W) : W10 m c (Proc.devRef .tc (Pipeline.arrRef spec2 w)) = (dat2 (atTc (W9 m)) c).arrAt w cfg2.N :=
  Pipeline.withArrays_arr spec2 launch2.win.arr_inj c _ _ w
theorem W12_arr (c : Dev nD) (w : Fin cfg3.W) : W12 m c (Proc.devRef .tc (Pipeline.arrRef spec3 w)) = (dat3 (atTc (W11 m)) c).arrAt w cfg3.N :=
  Pipeline.withArrays_arr spec3 launch3.win.arr_inj c _ _ w
theorem W14_arr (c : Dev nD) (w : Fin cfg4.W) : W14 m c (Proc.devRef .tc (Pipeline.arrRef spec4 w)) = (dat4 (atTc (W13 m)) c).arrAt w cfg4.N :=
  Pipeline.withArrays_arr spec4 launch4.win.arr_inj c _ _ w
theorem W16_arr (c : Dev nD) (w : Fin cfg5.W) : W16 m c (Proc.devRef .tc (Pipeline.arrRef spec5 w)) = (dat5 (atTc (W15 m)) c).arrAt w cfg5.N :=
  Pipeline.withArrays_arr spec5 launch5.win.arr_inj c _ _ w
theorem W18_arr (c : Dev nD) (w : Fin cfg6.W) : W18 m c (Proc.devRef .tc (Pipeline.arrRef spec6 w)) = (dat6 (atTc (W17 m)) c).arrAt w cfg6.N :=
  Pipeline.withArrays_arr spec6 launch6.win.arr_inj c _ _ w
theorem W6_keep (c : Dev nD) (b : Ref sig .tc) (hb : b ≠ main_v12) : W6 m c (Proc.devRef .tc b) = W5 m c (Proc.devRef .tc b) :=
  exit_keep launch0 c (W5 m) _ (A_eq0 _ c) main_v12 (by decide) b hb
theorem W8_keep (c : Dev nD) (b : Ref sig .tc) (hb : b ≠ main_v25) : W8 m c (Proc.devRef .tc b) = W7 m c (Proc.devRef .tc b) :=
  exit_keep launch1 c (W7 m) _ (A_eq1 _ c) main_v25 (by decide) b hb
theorem W10_keep (c : Dev nD) (b : Ref sig .tc) (hb : b ≠ main_v27) : W10 m c (Proc.devRef .tc b) = W9 m c (Proc.devRef .tc b) :=
  exit_keep launch2 c (W9 m) _ (A_eq2 _ c) main_v27 (by decide) b hb
theorem W12_keep (c : Dev nD) (b : Ref sig .tc) (hb : b ≠ main_v40) : W12 m c (Proc.devRef .tc b) = W11 m c (Proc.devRef .tc b) :=
  exit_keep launch3 c (W11 m) _ (A_eq3 _ c) main_v40 (by decide) b hb
theorem W14_keep (c : Dev nD) (b : Ref sig .tc) (hb : b ≠ main_v42) : W14 m c (Proc.devRef .tc b) = W13 m c (Proc.devRef .tc b) :=
  exit_keep launch4 c (W13 m) _ (A_eq4 _ c) main_v42 (by decide) b hb
theorem W16_keep (c : Dev nD) (b : Ref sig .tc) (hb : b ≠ main_v55) : W16 m c (Proc.devRef .tc b) = W15 m c (Proc.devRef .tc b) :=
  exit_keep launch5 c (W15 m) _ (A_eq5 _ c) main_v55 (by decide) b hb
theorem W18_keep (c : Dev nD) (b : Ref sig .tc) (hb : b ≠ main_v58) : W18 m c (Proc.devRef .tc b) = W17 m c (Proc.devRef .tc b) :=
  exit_keep launch6 c (W17 m) _ (A_eq6 _ c) main_v58 (by decide) b hb

def pdats : (p : Fin 7) → (c : Dev nD) → Dat τ (Elt F) Unit ℕ (UR sig nD τ) ℕ (Pipeline.pin (pcfgs (F := F)) adm p) c
  | ⟨0, _⟩ => fun c => dat0 (atTc (W5 m)) c
  | ⟨1, _⟩ => fun c => dat1 (atTc (W7 m)) c
  | ⟨2, _⟩ => fun c => dat2 (atTc (W9 m)) c
  | ⟨3, _⟩ => fun c => dat3 (atTc (W11 m)) c
  | ⟨4, _⟩ => fun c => dat4 (atTc (W13 m)) c
  | ⟨5, _⟩ => fun c => dat5 (atTc (W15 m)) c
  | ⟨6, _⟩ => fun c => dat6 (atTc (W17 m)) c
abbrev 𝒱₀ : Variants := Variants.none
abbrev L : GSem nD τ sig → Finset Unit := fun _ => ∅
abbrev lv : GSem nD τ sig → Unit → ℕ := fun _ _ => 0

local notation "𝕄" => MT nD τ sig Unit (Elt F) ℕ (UR sig nD τ) ℕ

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W18 m c) ∗ ∃ r, prngReg c r)

abbrev written : List (Ref sig .tc) :=
  hostOps0_W ++ hostOps0_1_W ++ hostOps0_2_W ++ hostOps0_3_W ++ hostOps0_4_W ++ hostOps1_W ++ hostOps2_W ++ hostOps3_W ++ hostOps4_W
    ++ hostOps5_W ++ hostOps6_W ++ [main_v12, main_v25, main_v27, main_v40, main_v42, main_v55, main_v58]

/-- A buffer no item writes reaches the end of @main as launched: each item in turn leaves it alone. -/
theorem W18_unwritten (c : Dev nD) (b : Ref sig .tc) (h : b ∉ written) : W18 m c (Proc.devRef .tc b) = m ((c : Thread nD τ).loc b) := by
  have nw {l : List (Ref sig .tc)} (hl : l ⊆ written) : b ∉ l := fun hb => h (hl hb)
  have nv {v : Ref sig .tc} (hv : v ∈ written) : b ≠ v := fun e => h (e ▸ hv)
  calc W18 m c (Proc.devRef .tc b)
    _ = W17 m c (Proc.devRef .tc b) := W18_keep m c b (nv (by decide))
    _ = W16 m c (Proc.devRef .tc b) := StableHlo.after_of_writes_sub hostOps6 _ hostOps6_writes (nw (by decide))
    _ = W15 m c (Proc.devRef .tc b) := W16_keep m c b (nv (by decide))
    _ = W14 m c (Proc.devRef .tc b) := StableHlo.after_of_writes_sub hostOps5 _ hostOps5_writes (nw (by decide))
    _ = W13 m c (Proc.devRef .tc b) := W14_keep m c b (nv (by decide))
    _ = W12 m c (Proc.devRef .tc b) := StableHlo.after_of_writes_sub hostOps4 _ hostOps4_writes (nw (by decide))
    _ = W11 m c (Proc.devRef .tc b) := W12_keep m c b (nv (by decide))
    _ = W10 m c (Proc.devRef .tc b) := StableHlo.after_of_writes_sub hostOps3 _ hostOps3_writes (nw (by decide))
    _ = W9 m c (Proc.devRef .tc b) := W10_keep m c b (nv (by decide))
    _ = W8 m c (Proc.devRef .tc b) := StableHlo.after_of_writes_sub hostOps2 _ hostOps2_writes (nw (by decide))
    _ = W7 m c (Proc.devRef .tc b) := W8_keep m c b (nv (by decide))
    _ = W6 m c (Proc.devRef .tc b) := StableHlo.after_of_writes_sub hostOps1 _ hostOps1_writes (nw (by decide))
    _ = W5 m c (Proc.devRef .tc b) := W6_keep m c b (nv (by decide))
    _ = W4 m c (Proc.devRef .tc b) := StableHlo.after_of_writes_sub hostOps0_4 _ hostOps0_4_writes (nw (by decide))
    _ = W3 m c (Proc.devRef .tc b) := StableHlo.after_of_writes_sub hostOps0_3 _ hostOps0_3_writes (nw (by decide))
    _ = W2 m c (Proc.devRef .tc b) := StableHlo.after_of_writes_sub hostOps0_2 _ hostOps0_2_writes (nw (by decide))
    _ = W1 m c (Proc.devRef .tc b) := StableHlo.after_of_writes_sub hostOps0_1 _ hostOps0_1_writes (nw (by decide))
    _ = W0 m c (Proc.devRef .tc b) := StableHlo.after_of_writes_sub hostOps0 _ hostOps0_writes (nw (by decide))
    _ = m ((c : Thread nD τ).loc b) := rfl

end Cert.KernelIdeal.Fr

end
-- ==== Proof.KI.Reg.lean ====
import proofs.«424855_j19189913879214_2_alg».proof.Proof.KI.Fold

noncomputable section

namespace Cert.KernelIdeal.Fr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- What region `p`, entered at `Wi`, leaves: its arrays at the proof data's final contents, every other buffer as entered. -/
abbrev exitOf (p : Fin 7) (Wi : Dev nD → Valuation τ sig (Elt F)) (c : Dev nD) : Valuation τ sig (Elt F) :=
  Pipeline.withArrays (Pipeline.pin (pcfgs (F := F)) adm p).spec c (Wi c) fun w => (pdats m p c).arrAt w (Pipeline.pin (pcfgs (F := F)) adm p).N

set_option backward.isDefEq.respectTransparency.types false in
/-- Kernel region `p` as a segment of @main from the contents `Wi` to `exitOf m p Wi`. -/
def regOf (p : Fin 7) (launch : Pipeline.LaunchFacts (nD := nD) (τ := τ) cfgs p) (Wi : Dev nD → Valuation τ sig (Elt F))
    (hbody : ∀ c, BodyObligation (pdats m p c) (defs₀ (F := F)) 𝒱₀ () Set.univ)
    (hΦi : ∀ c, (Pipeline.ΦA (Pipeline.pin (pcfgs (F := F)) adm p).spec c : sProp 𝕄) ⊢ (pdats m p c).Φ 0 := by exact fun _ => .rfl)
    (hΦo : ∀ c, (pdats m p c).Φ (Fin.last _) ⊢ (Pipeline.ΦA (Pipeline.pin (pcfgs (F := F)) adm p).spec c : sProp 𝕄) := by exact fun _ => .rfl)
    (hq : ∀ c w, (pdats m p c).q w = fullShare := by exact fun _ _ => rfl) (howed : ∀ c t, (pdats m p c).owed t = 0 := by exact fun _ _ => rfl)
    (hrec : ∀ c x, x ∈ (pdats m p c).recorded 0 := by exact fun _ _ => trivial)
    (hA : ∀ c w, (pdats m p c).A w = atTc Wi c (Pipeline.arrRef (Pipeline.pin (pcfgs (F := F)) adm p).spec w) := by exact fun _ _ => rfl) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (exitOf m p Wi c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (atTc Wi c)
  hentry c := by
    rw [Pipeline.ownSems0_none]
    have hsplit := Pipeline.arrays_of_unscopedBufs (p := p) (pcfgs (F := F)) adm (pdats m) launch.win launch.arr_whole c
      ((pdats m p c).share_full (hq c)) (atTc Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (hrec c x)
      rw [howed]; iexact HO
    isplitl [Hp]; · iexact Hp
    iexact Hrest
  hin c := by
    refine .trans ?_ (hΦi c); unfold Pipeline.ΦA
    iintro ⟨Hp, -, Hr⟩
    isplitl [Hr]; · iexact Hr
    iexact Hp
  hout c := by
    rw [Pipeline.ownSems0_none]; refine (hΦo c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (atTc Wi c) (atTc (exitOf m p Wi) c) ((pdats m p c).arrAt · (Pipeline.pin (pcfgs (F := F)) adm p).N)
      (fun w => (Pipeline.withArrays_arr (Pipeline.pin (pcfgs (F := F)) adm p).spec launch.win.arr_inj c (Wi c) (fun w => (pdats m p c).arrAt w (Pipeline.pin (pcfgs (F := F)) adm p).N) w).symm)
      (fun b hb => Pipeline.withArrays_of_ne (Pipeline.pin (pcfgs (F := F)) adm p).spec c (Wi c) (fun w => (pdats m p c).arrAt w (Pipeline.pin (pcfgs (F := F)) adm p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; rw [howed]; iexact HO

/-- @main's seven kernel regions, each entered at the contents the items before it leave. -/
def reg0 := regOf m 0 launch0 (W5 m) (body_obligation0 (atTc (W5 m)))
def reg1 := regOf m 1 launch1 (W7 m) (body_obligation1 (atTc (W7 m)))
def reg2 := regOf m 2 launch2 (W9 m) (body_obligation2 (atTc (W9 m)))
def reg3 := regOf m 3 launch3 (W11 m) (body_obligation3 (atTc (W11 m)))
def reg4 := regOf m 4 launch4 (W13 m) (body_obligation4 (atTc (W13 m)))
def reg5 := regOf m 5 launch5 (W15 m) (body_obligation5 (atTc (W15 m)))
def reg6 := regOf m 6 launch6 (W17 m) (body_obligation6 (atTc (W17 m))) (Φ6_in (atTc (W17 m))) (Φ6_out (atTc (W17 m)))

end Cert.KernelIdeal.Fr

end
-- ==== Proof.KI.Run.lean ====
import proofs.«424855_j19189913879214_2_alg».proof.Proof.KI.Reg
import Idealize.ShloMosaic.Lib.Pipeline.Kit

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's eighteen items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .host (hseg hostOps1 hostOps1_sub hostOps1_fresh (W6 m)),
    .region (reg1 m),
    .host (hseg hostOps2 hostOps2_sub hostOps2_fresh (W8 m)),
    .region (reg2 m),
    .host (hseg hostOps3 hostOps3_sub hostOps3_fresh (W10 m)),
    .region (reg3 m),
    .host (hseg hostOps4 hostOps4_sub hostOps4_fresh (W12 m)),
    .region (reg4 m),
    .host (hseg hostOps5 hostOps5_sub hostOps5_fresh (W14 m)),
    .region (reg5 m),
    .host (hseg hostOps6 hostOps6_sub hostOps6_fresh (W16 m)),
    .region (reg6 m) ]

theorem main_run (c : Dev nD) : main (F := F) c = Pipeline.Seg.run (segs m) := (main_chain c).trans (by chain_rfl)

set_option backward.isDefEq.respectTransparency.types false in
/-- Every weakly fair execution of @main ends, faultless, with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W18 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m c b)
    (hfin := fun c s' => by
      iintro ⟨⟨Hh, -⟩, HSI⟩
      unfold StableHlo.held
      imodintro
      iapply (pointsTo_read_all (Pipeline.ucRefs τ sig) (fun b => (((c : Thread nD τ)).1, b)) (W18 m c) s')
      isplitl [Hh] <;> iassumption)
    (hQ := fun s h c => h c)

/-- An argument array, written by no item, is read back at the end as launched. -/
theorem kept {c : Dev nD} {s : MemSt nD τ sig (Elt F)} (h : ∀ b ∈ Pipeline.ucRefs τ sig, s.mem (((c : Thread nD τ)).1, b) = W18 m c b)
    (a : Ref sig .tc) (hs : ¬ (Proc.devRef .tc a : DevRef τ sig).isScoped) (hw : a ∉ written) :
    s.mem ((c.tc : Thread nD τ).loc a) = m ((c.tc : Thread nD τ).loc a) :=
  (h _ (mem_uc a hs)).trans (W18_unwritten m c a hw)

/-- The run read at the result buffer and at the arguments. -/
theorem run_res : θ_run defs (onTc (τ := τ) (main (F := F))) ⟨m, fun _ => 0, ρ⟩ (fun r => ∀ c : Dev nD,
      r.2.mem ((c.tc : Thread nD τ).loc main_v58) = W18 m c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v58 (by decide)),
    kept m (h c) main_arg0 (by decide) (by decide), kept m (h c) main_arg1 (by decide) (by decide), kept m (h c) main_arg2 (by decide) (by decide), kept m (h c) main_arg3 (by decide) (by decide),
    kept m (h c) main_arg4 (by decide) (by decide), kept m (h c) main_arg5 (by decide) (by decide), kept m (h c) main_arg6 (by decide) (by decide), kept m (h c) main_arg7 (by decide) (by decide),
    kept m (h c) main_arg8 (by decide) (by decide), kept m (h c) main_arg9 (by decide) (by decide), kept m (h c) main_arg10 (by decide) (by decide), kept m (h c) main_arg11 (by decide) (by decide)⟩) (run_all m ρ)

end Cert.KernelIdeal.Fr

end
-- ==== Proof.Val.Glue.lean ====
import proofs.«424855_j19189913879214_2_alg».proof.Proof.KI.Fold

/-! What a later item of @main reads is still what the item that wrote it left.

    Between two items the core's buffers are a fold from the launch memory (`W0` .. `W18`): a stretch of host
    operations rewrites exactly the references it names as results; a kernel region rewrites exactly its output
    array. So a reference reaches a boundary unchanged from an earlier one as soon as no item in between
    names it as a result, which is decided over the finitely many references. Stated here: the one-step facts,
    every launch array at every boundary, and every intermediate result at the later boundaries where an item
    reads it. -/

set_option maxRecDepth 16384

noncomputable section

namespace Cert.KernelIdeal.Val

open Idealize.ShloMosaic Idealize.ShloMosaic.TcCoe
open Idealize.SL Idealize.SL.Sem
open Cert.KernelIdeal Cert.KernelIdeal.Gen Cert.KernelIdeal.Fr

variable {F : FTy → Type} [FloatOps F]

variable (m : (ℓ : Loc nD τ sig) → Buf (Elt F) ℓ) (c : Dev nD)

/-! ## One step: a stretch of host operations leaves what it does not write -/

theorem W1_step (b : Ref sig .tc) (h : b ∉ hostOps0_W) : W1 m c (Proc.devRef .tc b) = W0 m c (Proc.devRef .tc b) :=
  StableHlo.after_of_writes_sub hostOps0 _ hostOps0_writes h
theorem W2_step (b : Ref sig .tc) (h : b ∉ hostOps0_1_W) : W2 m c (Proc.devRef .tc b) = W1 m c (Proc.devRef .tc b) :=
  StableHlo.after_of_writes_sub hostOps0_1 _ hostOps0_1_writes h
theorem W3_step (b : Ref sig .tc) (h : b ∉ hostOps0_2_W) : W3 m c (Proc.devRef .tc b) = W2 m c (Proc.devRef .tc b) :=
  StableHlo.after_of_writes_sub hostOps0_2 _ hostOps0_2_writes h
theorem W4_step (b : Ref sig .tc) (h : b ∉ hostOps0_3_W) : W4 m c (Proc.devRef .tc b) = W3 m c (Proc.devRef .tc b) :=
  StableHlo.after_of_writes_sub hostOps0_3 _ hostOps0_3_writes h
theorem W5_step (b : Ref sig .tc) (h : b ∉ hostOps0_4_W) : W5 m c (Proc.devRef .tc b) = W4 m c (Proc.devRef .tc b) :=
  StableHlo.after_of_writes_sub hostOps0_4 _ hostOps0_4_writes h
theorem W7_step (b : Ref sig .tc) (h : b ∉ hostOps1_W) : W7 m c (Proc.devRef .tc b) = W6 m c (Proc.devRef .tc b) :=
  StableHlo.after_of_writes_sub hostOps1 _ hostOps1_writes h
theorem W9_step (b : Ref sig .tc) (h : b ∉ hostOps2_W) : W9 m c (Proc.devRef .tc b) = W8 m c (Proc.devRef .tc b) :=
  StableHlo.after_of_writes_sub hostOps2 _ hostOps2_writes h
theorem W11_step (b : Ref sig .tc) (h : b ∉ hostOps3_W) : W11 m c (Proc.devRef .tc b) = W10 m c (Proc.devRef .tc b) :=
  StableHlo.after_of_writes_sub hostOps3 _ hostOps3_writes h
theorem W13_step (b : Ref sig .tc) (h : b ∉ hostOps4_W) : W13 m c (Proc.devRef .tc b) = W12 m c (Proc.devRef .tc b) :=
  StableHlo.after_of_writes_sub hostOps4 _ hostOps4_writes h
theorem W15_step (b : Ref sig .tc) (h : b ∉ hostOps5_W) : W15 m c (Proc.devRef .tc b) = W14 m c (Proc.devRef .tc b) :=
  StableHlo.after_of_writes_sub hostOps5 _ hostOps5_writes h
theorem W17_step (b : Ref sig .tc) (h : b ∉ hostOps6_W) : W17 m c (Proc.devRef .tc b) = W16 m c (Proc.devRef .tc b) :=
  StableHlo.after_of_writes_sub hostOps6 _ hostOps6_writes h

/-! ## The launch arrays at every boundary -/

/-- A reference no item writes is written by no single item. -/
theorem not_written {b : Ref sig .tc} (h : b ∉ written) :
    (b ∉ hostOps0_W ∧ b ∉ hostOps0_1_W ∧ b ∉ hostOps0_2_W ∧ b ∉ hostOps0_3_W ∧ b ∉ hostOps0_4_W ∧ b ∉ hostOps1_W ∧ b ∉ hostOps2_W
      ∧ b ∉ hostOps3_W ∧ b ∉ hostOps4_W ∧ b ∉ hostOps5_W ∧ b ∉ hostOps6_W)
    ∧ (b ≠ main_v12 ∧ b ≠ main_v25 ∧ b ≠ main_v27 ∧ b ≠ main_v40 ∧ b ≠ main_v42 ∧ b ≠ main_v55 ∧ b ≠ main_v58) := by
  have hv : b ∉ ([main_v12, main_v25, main_v27, main_v40, main_v42, main_v55, main_v58] : List (Ref sig .tc)) :=
    fun hh => h (by simp only [written, List.mem_append]; tauto)
  refine ⟨⟨?_, ?_, ?_, ?_, ?_, ?_, ?_, ?_, ?_, ?_, ?_⟩, ?_, ?_, ?_, ?_, ?_, ?_, ?_⟩
  all_goals first
    | exact fun hh => h (by simp only [written, List.mem_append]; tauto)
    | exact fun e => hv (by rw [e]; decide)

theorem W1_unwritten (b : Ref sig .tc) (h : b ∉ written) : W1 m c (Proc.devRef .tc b) = W0 m c (Proc.devRef .tc b) :=
  W1_step m c b (not_written h).1.1
theorem W2_unwritten (b : Ref sig .tc) (h : b ∉ written) : W2 m c (Proc.devRef .tc b) = W0 m c (Proc.devRef .tc b) :=
  (W2_step m c b (not_written h).1.2.1).trans (W1_unwritten m c b h)
theorem W3_unwritten (b : Ref sig .tc) (h : b ∉ written) : W3 m c (Proc.devRef .tc b) = W0 m c (Proc.devRef .tc b) :=
  (W3_step m c b (not_written h).1.2.2.1).trans (W2_unwritten m c b h)
theorem W4_unwritten (b : Ref sig .tc) (h : b ∉ written) : W4 m c (Proc.devRef .tc b) = W0 m c (Proc.devRef .tc b) :=
  (W4_step m c b (not_written h).1.2.2.2.1).trans (W3_unwritten m c b h)
theorem W5_unwritten (b : Ref sig .tc) (h : b ∉ written) : W5 m c (Proc.devRef .tc b) = W0 m c (Proc.devRef .tc b) :=
  (W5_step m c b (not_written h).1.2.2.2.2.1).trans (W4_unwritten m c b h)
theorem W6_unwritten (b : Ref sig .tc) (h : b ∉ written) : W6 m c (Proc.devRef .tc b) = W0 m c (Proc.devRef .tc b) :=
  (W6_keep m c b (not_written h).2.1).trans (W5_unwritten m c b h)
theorem W7_unwritten (b : Ref sig .tc) (h : b ∉ written) : W7 m c (Proc.devRef .tc b) = W0 m c (Proc.devRef .tc b) :=
  (W7_step m c b (not_written h).1.2.2.2.2.2.1).trans (W6_unwritten m c b h)
theorem W8_unwritten (b : Ref sig .tc) (h : b ∉ written) : W8 m c (Proc.devRef .tc b) = W0 m c (Proc.devRef .tc b) :=
  (W8_keep m c b (not_written h).2.2.1).trans (W7_unwritten m c b h)
theorem W9_unwritten (b : Ref sig .tc) (h : b ∉ written) : W9 m c (Proc.devRef .tc b) = W0 m c (Proc.devRef .tc b) :=
  (W9_step m c b (not_written h).1.2.2.2.2.2.2.1).trans (W8_unwritten m c b h)
theorem W10_unwritten (b : Ref sig .tc) (h : b ∉ written) : W10 m c (Proc.devRef .tc b) = W0 m c (Proc.devRef .tc b) :=
  (W10_keep m c b (not_written h).2.2.2.1).trans (W9_unwritten m c b h)
theorem W11_unwritten (b : Ref sig .tc) (h : b ∉ written) : W11 m c (Proc.devRef .tc b) = W0 m c (Proc.devRef .tc b) :=
  (W11_step m c b (not_written h).1.2.2.2.2.2.2.2.1).trans (W10_unwritten m c b h)
theorem W12_unwritten (b : Ref sig .tc) (h : b ∉ written) : W12 m c (Proc.devRef .tc b) = W0 m c (Proc.devRef .tc b) :=
  (W12_keep m c b (not_written h).2.2.2.2.1).trans (W11_unwritten m c b h)
theorem W13_unwritten (b : Ref sig .tc) (h : b ∉ written) : W13 m c (Proc.devRef .tc b) = W0 m c (Proc.devRef .tc b) :=
  (W13_step m c b (not_written h).1.2.2.2.2.2.2.2.2.1).trans (W12_unwritten m c b h)
theorem W14_unwritten (b : Ref sig .tc) (h : b ∉ written) : W14 m c (Proc.devRef .tc b) = W0 m c (Proc.devRef .tc b) :=
  (W14_keep m c b (not_written h).2.2.2.2.2.1).trans (W13_unwritten m c b h)
theorem W15_unwritten (b : Ref sig .tc) (h : b ∉ written) : W15 m c (Proc.devRef .tc b) = W0 m c (Proc.devRef .tc b) :=
  (W15_step m c b (not_written h).1.2.2.2.2.2.2.2.2.2.1).trans (W14_unwritten m c b h)
theorem W16_unwritten (b : Ref sig .tc) (h : b ∉ written) : W16 m c (Proc.devRef .tc b) = W0 m c (Proc.devRef .tc b) :=
  (W16_keep m c b (not_written h).2.2.2.2.2.2.1).trans (W15_unwritten m c b h)
theorem W17_unwritten (b : Ref sig .tc) (h : b ∉ written) : W17 m c (Proc.devRef .tc b) = W0 m c (Proc.devRef .tc b) :=
  (W17_step m c b (not_written h).1.2.2.2.2.2.2.2.2.2.2).trans (W16_unwritten m c b h)
theorem W18_unwritten (b : Ref sig .tc) (h : b ∉ written) : W18 m c (Proc.devRef .tc b) = W0 m c (Proc.devRef .tc b) :=
  (W18_keep m c b (not_written h).2.2.2.2.2.2.2).trans (W17_unwritten m c b h)

/-- The launch arrays each item reads, at the boundary where it reads them. -/
theorem W2_arg2 : W2 m c (Proc.devRef .tc main_arg2) = W0 m c (Proc.devRef .tc main_arg2) := W2_unwritten m c main_arg2 (by decide)
theorem W5_arg0 : W5 m c (Proc.devRef .tc main_arg0) = W0 m c (Proc.devRef .tc main_arg0) := W5_unwritten m c main_arg0 (by decide)
theorem W5_arg4 : W5 m c (Proc.devRef .tc main_arg4) = W0 m c (Proc.devRef .tc main_arg4) := W5_unwritten m c main_arg4 (by decide)
theorem W6_arg1 : W6 m c (Proc.devRef .tc main_arg1) = W0 m c (Proc.devRef .tc main_arg1) := W6_unwritten m c main_arg1 (by decide)
theorem W6_arg2 : W6 m c (Proc.devRef .tc main_arg2) = W0 m c (Proc.devRef .tc main_arg2) := W6_unwritten m c main_arg2 (by decide)
theorem W6_arg5 : W6 m c (Proc.devRef .tc main_arg5) = W0 m c (Proc.devRef .tc main_arg5) := W6_unwritten m c main_arg5 (by decide)
theorem W9_arg6 : W9 m c (Proc.devRef .tc main_arg6) = W0 m c (Proc.devRef .tc main_arg6) := W9_unwritten m c main_arg6 (by decide)
theorem W10_arg1 : W10 m c (Proc.devRef .tc main_arg1) = W0 m c (Proc.devRef .tc main_arg1) := W10_unwritten m c main_arg1 (by decide)
theorem W10_arg2 : W10 m c (Proc.devRef .tc main_arg2) = W0 m c (Proc.devRef .tc main_arg2) := W10_unwritten m c main_arg2 (by decide)
theorem W10_arg7 : W10 m c (Proc.devRef .tc main_arg7) = W0 m c (Proc.devRef .tc main_arg7) := W10_unwritten m c main_arg7 (by decide)
theorem W13_arg8 : W13 m c (Proc.devRef .tc main_arg8) = W0 m c (Proc.devRef .tc main_arg8) := W13_unwritten m c main_arg8 (by decide)
theorem W14_arg1 : W14 m c (Proc.devRef .tc main_arg1) = W0 m c (Proc.devRef .tc main_arg1) := W14_unwritten m c main_arg1 (by decide)
theorem W14_arg2 : W14 m c (Proc.devRef .tc main_arg2) = W0 m c (Proc.devRef .tc main_arg2) := W14_unwritten m c main_arg2 (by decide)
theorem W14_arg9 : W14 m c (Proc.devRef .tc main_arg9) = W0 m c (Proc.devRef .tc main_arg9) := W14_unwritten m c main_arg9 (by decide)
theorem W16_arg3 : W16 m c (Proc.devRef .tc main_arg3) = W0 m c (Proc.devRef .tc main_arg3) := W16_unwritten m c main_arg3 (by decide)
theorem W16_arg11 : W16 m c (Proc.devRef .tc main_arg11) = W0 m c (Proc.devRef .tc main_arg11) := W16_unwritten m c main_arg11 (by decide)
theorem W17_arg10 : W17 m c (Proc.devRef .tc main_arg10) = W0 m c (Proc.devRef .tc main_arg10) := W17_unwritten m c main_arg10 (by decide)

/-! ## Intermediate results read past later items -/

/-- The vector of ones, written before the out-degrees are clipped and read again for the in-degrees. -/
theorem W2_v0 : W2 m c (Proc.devRef .tc main_v0) = W1 m c (Proc.devRef .tc main_v0) :=
  W2_step m c main_v0 (by decide)
/-- The clipped out-degrees, read once the in-degrees are clipped too. -/
theorem W4_v4 : W4 m c (Proc.devRef .tc main_v4) = W2 m c (Proc.devRef .tc main_v4) :=
  (W4_step m c main_v4 (by decide)).trans (W3_step m c main_v4 (by decide))
/-- The inverse root of the in-degrees, read by each layer's stretch before its second region. -/
theorem W6_v10 : W6 m c (Proc.devRef .tc main_v10) = W5 m c (Proc.devRef .tc main_v10) :=
  W6_keep m c main_v10 (by decide)
theorem W10_v10 : W10 m c (Proc.devRef .tc main_v10) = W5 m c (Proc.devRef .tc main_v10) :=
  (W10_keep m c main_v10 (by decide)).trans ((W9_step m c main_v10 (by decide)).trans ((W8_keep m c main_v10 (by decide)).trans ((W7_step m c main_v10 (by decide)).trans (W6_keep m c main_v10 (by decide)))))
theorem W14_v10 : W14 m c (Proc.devRef .tc main_v10) = W5 m c (Proc.devRef .tc main_v10) :=
  (W14_keep m c main_v10 (by decide)).trans ((W13_step m c main_v10 (by decide)).trans ((W12_keep m c main_v10 (by decide)).trans ((W11_step m c main_v10 (by decide)).trans ((W10_keep m c main_v10 (by decide)).trans ((W9_step m c main_v10 (by decide)).trans ((W8_keep m c main_v10 (by decide)).trans ((W7_step m c main_v10 (by decide)).trans (W6_keep m c main_v10 (by decide)))))))))
/-- The inverse root of the out-degrees, read by the stretch before each later transform. -/
theorem W8_v9 : W8 m c (Proc.devRef .tc main_v9) = W5 m c (Proc.devRef .tc main_v9) :=
  (W8_keep m c main_v9 (by decide)).trans ((W7_step m c main_v9 (by decide)).trans (W6_keep m c main_v9 (by decide)))
theorem W12_v9 : W12 m c (Proc.devRef .tc main_v9) = W5 m c (Proc.devRef .tc main_v9) :=
  (W12_keep m c main_v9 (by decide)).trans ((W11_step m c main_v9 (by decide)).trans ((W10_keep m c main_v9 (by decide)).trans ((W9_step m c main_v9 (by decide)).trans ((W8_keep m c main_v9 (by decide)).trans ((W7_step m c main_v9 (by decide)).trans (W6_keep m c main_v9 (by decide)))))))
/-- A layer's output, across the one reshape that stands before the next transform (and before the pooling). -/
theorem W9_v25 : W9 m c (Proc.devRef .tc main_v25) = W8 m c (Proc.devRef .tc main_v25) :=
  W9_step m c main_v25 (by decide)
theorem W13_v40 : W13 m c (Proc.devRef .tc main_v40) = W12 m c (Proc.devRef .tc main_v40) :=
  W13_step m c main_v40 (by decide)
theorem W17_v55 : W17 m c (Proc.devRef .tc main_v55) = W16 m c (Proc.devRef .tc main_v55) :=
  W17_step m c main_v55 (by decide)

end Cert.KernelIdeal.Val

end
-- ==== Proof.Val.Layout.lean ====
import Idealize.ShloMosaic.Lib.Pipeline.Value
import Idealize.ShloMosaic.Lib.ValueIdx

namespace Cert.KernelIdeal.Val

open Idealize.ShloMosaic Idealize.ShloMosaic.ValueIdx

variable {α : Type}

/-- A vector reshaped to one column and the vector broadcast along axis 0 both read, at `(i, 0)`, entry `i`. -/
theorem shapeCast_col_eq_broadcastInDim (n : Nat) (hc : (⟨1, ![n]⟩ : Shape).ShapeCasts ⟨2, ![n, 1]⟩)
    (hb : (⟨1, ![n]⟩ : Shape).BroadcastsInDim ⟨2, ![n, 1]⟩ (![0] : Fin 1 → Fin 2)) (x : (⟨1, ![n]⟩ : Shape).Idx → α) :
    shapeCast ⟨2, ![n, 1]⟩ x hc = broadcastInDim ⟨2, ![n, 1]⟩ ![0] hb x := by
  funext j
  have h0 := idx2_lt0 j
  have h1 := idx2_lt1 j
  rw [shapeCast_apply x hc j (ix1 (j 0)) (by
      rw [Shape.rowMajor_val_one, Shape.rowMajor_val_two]
      show (j 0).val = (j 0).val * 1 + (j 1).val
      omega),
    broadcastInDim_apply ![0] hb x j (ix1 (j 0)) fun | ⟨0, _⟩ => by show (j 0).val = if n = 1 then 0 else (j 0).val; split <;> omega]

/-- A vector reshaped to one row and the vector broadcast along axis 1 both read, at `(0, i)`, entry `i`. -/
theorem shapeCast_row_eq_broadcastInDim (n : Nat) (hc : (⟨1, ![n]⟩ : Shape).ShapeCasts ⟨2, ![1, n]⟩)
    (hb : (⟨1, ![n]⟩ : Shape).BroadcastsInDim ⟨2, ![1, n]⟩ (![1] : Fin 1 → Fin 2)) (x : (⟨1, ![n]⟩ : Shape).Idx → α) :
    shapeCast ⟨2, ![1, n]⟩ x hc = broadcastInDim ⟨2, ![1, n]⟩ ![1] hb x := by
  funext j
  have h0 : (j 0).val = 0 := Nat.lt_one_iff.1 (idx2_lt0 j)
  have h1 := idx2_lt1 j
  rw [shapeCast_apply x hc j (ix1 (j 1)) (by
      rw [Shape.rowMajor_val_one, Shape.rowMajor_val_two]
      show (j 1).val = (j 0).val * n + (j 1).val
      rw [h0, Nat.zero_mul, Nat.zero_add]),
    broadcastInDim_apply ![1] hb x j (ix1 (j 1)) fun | ⟨0, _⟩ => by show (j 1).val = if n = 1 then 0 else (j 1).val; split <;> omega]

end Cert.KernelIdeal.Val
-- ==== Proof.Val.PoolSpec.lean ====
import Idealize.ShloMosaic.Lib.ValueIdx
import Idealize.ShloMosaic.PureOps.Ideal.Laws

noncomputable section

namespace Cert.Pool

open Idealize.ShloMosaic Idealize.ShloMosaic.ValueIdx

variable (X : (⟨2, ![100000, 32]⟩ : Shape).Idx → EReal) (G : (⟨2, ![100000, 1]⟩ : Shape).Idx → BitVec 32)

/-- One if the word `w` is the graph number `g`, else zero. -/
def ind (w : BitVec 32) (g : Fin 64) : EReal := if w = BitVec.ofNat 32 g.val then 1 else 0

/-- The sum of feature `h` over the nodes whose id word is `g`. -/
def nodeSum (h : Fin 32) (g : Fin 64) : EReal := ∑ n, X (ix2 n h) * ind (G (ix2 n 0)) g

/-- The number of nodes whose id word is `g`. -/
def nodeCnt (g : Fin 64) : EReal := ∑ n, ind (G (ix2 n 0)) g

/-- Graph `g`'s mean features (each sum over the count clipped below at one) through the matrix `We`, plus the bias. -/
def poolAt (We : (⟨2, ![32, 16]⟩ : Shape).Idx → EReal) (B1 : (⟨2, ![1, 16]⟩ : Shape).Idx → EReal) (g : Fin 64) (e : Fin 16) : EReal :=
  (∑ h, We (ix2 h e) * Ideal.div (nodeSum X G h g) (max (nodeCnt G g) 1)) + B1 (ix2 0 e)

/-- Node `r` of block `t`: the 100000 nodes are ten blocks of 10000 consecutive ones. -/
def node (t : Fin 10) (r : Fin 10000) : Fin 100000 := ⟨10000 * t.val + r.val, by omega⟩

/-- A sum over the nodes is the sum over the ten blocks of each block's sum. -/
theorem sum_blocks (f : Fin 100000 → EReal) (fb : Nat → Fin 10000 → EReal) (hf : ∀ (t : Fin 10) r, fb t.val r = f (node t r)) :
    ∑ t ∈ Finset.range 10, ∑ r, fb t r = ∑ n, f n := by
  rw [← Fin.sum_univ_eq_sum_range (fun t => ∑ r, fb t r), ← Equiv.sum_comp (finProdFinEquiv (m := 10) (n := 10000)) f,
    Fintype.sum_prod_type]
  exact Finset.sum_congr rfl fun t _ => Finset.sum_congr rfl fun r _ =>
    (hf t r).trans (congrArg f (Fin.ext (Nat.add_comm _ _)))

variable (xb : Nat → (⟨2, ![10000, 32]⟩ : Shape).Idx → EReal) (gb : Nat → (⟨2, ![10000, 1]⟩ : Shape).Idx → BitVec 32)
  (hx : ∀ (t : Fin 10) r h, xb t.val (ix2 r h) = X (ix2 (node t r) h))
  (hg : ∀ (t : Fin 10) r, gb t.val (ix2 r 0) = G (ix2 (node t r) 0))
include hg

theorem nodeCnt_blocks (g : Fin 64) : ∑ t ∈ Finset.range 10, ∑ r, ind (gb t (ix2 r 0)) g = nodeCnt G g :=
  sum_blocks _ (fun t r => ind (gb t (ix2 r 0)) g) fun t r => by rw [hg t r]

include hx

theorem nodeSum_blocks (h : Fin 32) (g : Fin 64) :
    ∑ t ∈ Finset.range 10, ∑ r, xb t (ix2 r h) * ind (gb t (ix2 r 0)) g = nodeSum X G h g :=
  sum_blocks _ (fun t r => xb t (ix2 r h) * ind (gb t (ix2 r 0)) g) fun t r => by rw [hx t r h, hg t r]

end Cert.Pool

end
-- ==== Proof.Val.PoolRef.lean ====
import proofs.«424855_j19189913879214_2_alg».proof.Proof.Gen.ReferenceIdeal
import proofs.«424855_j19189913879214_2_alg».proof.Proof.Val.PoolSpec
import Idealize.ShloMosaic.Lib.ValueIdxRank1
import Idealize.ShloMosaic.Lib.StackMember

noncomputable section

namespace Cert.ReferenceIdeal.Pool

open Idealize.ShloMosaic Idealize.ShloMosaic.ValueIdx Cert.ReferenceIdeal Cert.ReferenceIdeal.Gen
open Cert.Pool
open scoped BigOperators

/-- A word read signed equals a number below 64 exactly when it is that number's word. -/
theorem toInt_eq_iff (w : BitVec 32) (g : Fin 64) : w.toInt = (g.val : Int) ↔ w = BitVec.ofNat 32 g.val := by
  have hg := g.isLt
  have hw := w.isLt
  rw [BitVec.toInt_eq_toNat_cond, ← BitVec.toNat_inj, BitVec.toNat_ofNat]
  split <;> omega

/-- An update lands at `i` iff on every axis its start plus window coordinate is `i`'s coordinate (inside the operand, so kept). -/
theorem resultIdx?_eq_some_iff {s si u : Shape} (d : ScatterDims s si u) {w : Nat} (j : u.Idx) (idx : IVec si w) (i : s.Idx) :
    d.resultIdx? j idx = some i ↔ ∀ a, d.start j idx a + d.window j a = ((i a).val : Int) := by
  unfold ScatterDims.resultIdx?
  split
  · rename_i hall
    rw [Option.some.injEq, funext_iff]
    refine forall_congr' fun a => ?_
    rw [Fin.ext_iff]
    have := (hall a).1
    show (d.start j idx a + d.window j a).toNat = (i a).val ↔ _
    omega
  · rename_i hall
    refine ⟨nofun, fun h => (hall fun a => ?_).elim⟩
    rw [h a]
    have := (i a).isLt
    omega

theorem start2_0 (G : IVec S100000x1 32) (n : Fin 100000) (h' : Fin 32) :
    scatter_S64x32_S100000x1_S100000x32_1_0_0_1.start (ix2 n h') G 0 = (G (ix2 n (0 : Fin 1))).toInt := by
  unfold ScatterDims.start
  rw [dif_pos (by decide)]
  exact congrArg (fun k => (G k).toInt) (funext fun b => Fin.ext (by match b with | ⟨0, _⟩ => rfl | ⟨1, _⟩ => rfl))
theorem start2_1 (G : IVec S100000x1 32) (n : Fin 100000) (h' : Fin 32) :
    scatter_S64x32_S100000x1_S100000x32_1_0_0_1.start (ix2 n h') G 1 = 0 := by
  unfold ScatterDims.start
  rw [dif_neg (by decide)]
theorem window2_0 (n : Fin 100000) (h' : Fin 32) :
    scatter_S64x32_S100000x1_S100000x32_1_0_0_1.window (ix2 n h') 0 = 0 := by
  unfold ScatterDims.window
  rw [dif_neg (by decide)]
theorem window2_1 (n : Fin 100000) (h' : Fin 32) :
    scatter_S64x32_S100000x1_S100000x32_1_0_0_1.window (ix2 n h') 1 = h'.val := by
  unfold ScatterDims.window
  rw [dif_pos (by decide)]
  rfl

/-- Feature update (n, h') lands at (g, h) iff node n's id is g and h' = h. -/
theorem resultIdx2_iff (G : IVec S100000x1 32) (n : Fin 100000) (h' : Fin 32) (g : Fin 64) (h : Fin 32) :
    scatter_S64x32_S100000x1_S100000x32_1_0_0_1.resultIdx? (ix2 n h') G = some (ix2 g h)
      ↔ G (ix2 n (0 : Fin 1)) = BitVec.ofNat 32 g.val ∧ h' = h := by
  rw [resultIdx?_eq_some_iff, Fin.forall_fin_two, start2_0, start2_1, window2_0, window2_1, ← toInt_eq_iff, Fin.ext_iff]
  show _ + ((0 : Nat) : Int) = (g.val : Int) ∧ (0 : Int) + (h'.val : Int) = (h.val : Int) ↔ _
  omega

theorem start1_0 (G : IVec S100000x1 32) (n : Fin 100000) :
    scatter_S64_S100000x1_S100000_n_0_0_1.start (ix1 n) G 0 = (G (ix2 n (0 : Fin 1))).toInt := by
  unfold ScatterDims.start
  rw [dif_pos (by decide)]
  exact congrArg (fun k => (G k).toInt) (funext fun b => Fin.ext (by match b with | ⟨0, _⟩ => rfl | ⟨1, _⟩ => rfl))
theorem window1_0 (n : Fin 100000) :
    scatter_S64_S100000x1_S100000_n_0_0_1.window (ix1 n) 0 = 0 := by
  unfold ScatterDims.window
  rw [dif_neg (by decide)]

/-- Count update n lands at g iff node n's id is g. -/
theorem resultIdx1_iff (G : IVec S100000x1 32) (n : Fin 100000) (g : Fin 64) :
    scatter_S64_S100000x1_S100000_n_0_0_1.resultIdx? (ix1 n) G = some (ix1 g)
      ↔ G (ix2 n (0 : Fin 1)) = BitVec.ofNat 32 g.val := by
  rw [resultIdx?_eq_some_iff, Fin.forall_fin_one, start1_0, window1_0, ← toInt_eq_iff]
  show _ + ((0 : Nat) : Int) = (g.val : Int) ↔ _
  omega

theorem sum_idx1 {n0 : Nat} (f : (⟨1, ![n0]⟩ : Shape).Idx → EReal) : ∑ i, f i = ∑ a : Fin n0, f (ix1 a) :=
  (Equiv.sum_comp idxEquiv1.symm f).symm

theorem one_f32 : Ideal.ofBits .f32 0x3F800000#32 = 1 := IdealRules.sign_bit.ideal_onePat .f32

/-- A broadcast scalar constant reads its value at every index. -/
theorem splat_apply {t : Shape} (h : S_.BroadcastsInDim t ![]) (b : BitVec 32) (i : t.Idx) :
    broadcastInDim t ![] h (constant (F := Ideal) S_ .f32 b) i = Ideal.ofBits .f32 b :=
  broadcastInDim_apply _ h _ i (fun a => a.elim0) (fun a => a.elim0)

/-- Scattering the rows by graph id into zeros gives, at (g, h), feature h summed over graph g's nodes. -/
theorem sums_apply (X : Vec Ideal S100000x32 .f32) (G : Vec Ideal S100000x1 .i32) (g : Fin 64) (h : Fin 32) :
    Host.scatterAdd (F := Ideal) scatter_S64x32_S100000x1_S100000x32_1_0_0_1
        (broadcastInDim S64x32 ![] bcast_S_S64x32 (constant (F := Ideal) S_ .f32 0x00000000#32)) G X (ix2 g h)
      = nodeSum X G h g := by
  show Ideal.hostScatterAdd scatter_S64x32_S100000x1_S100000x32_1_0_0_1 _ G X (ix2 g h) = _
  unfold Ideal.hostScatterAdd nodeSum
  rw [splat_apply, Ideal.ofBits_zero_f32, zero_add, Finset.sum_filter, sum_idx2]
  refine Finset.sum_congr rfl fun n _ => ?_
  simp only [resultIdx2_iff]
  unfold ind
  by_cases hG : G (ix2 n (0 : Fin 1)) = BitVec.ofNat 32 g.val
  · simp only [hG, true_and, if_true, mul_one]
    exact Finset.sum_ite_eq' Finset.univ h (fun h' => X (ix2 n h')) |>.trans (if_pos (Finset.mem_univ h))
  · simp only [hG, false_and, if_false, mul_zero]
    exact Finset.sum_const_zero

/-- Scattering ones by graph id into zeros gives, at g, the number of graph g's nodes. -/
theorem counts_apply (G : Vec Ideal S100000x1 .i32) (g : Fin 64) :
    Host.scatterAdd (F := Ideal) scatter_S64_S100000x1_S100000_n_0_0_1
        (broadcastInDim S64 ![] bcast_S_S64 (constant (F := Ideal) S_ .f32 0x00000000#32)) G
        (broadcastInDim S100000 ![] bcast_S_S100000 (constant (F := Ideal) S_ .f32 0x3F800000#32)) (ix1 g)
      = nodeCnt G g := by
  show Ideal.hostScatterAdd scatter_S64_S100000x1_S100000_n_0_0_1 _ G _ (ix1 g) = _
  unfold Ideal.hostScatterAdd nodeCnt
  rw [splat_apply, Ideal.ofBits_zero_f32, zero_add, Finset.sum_filter, sum_idx1]
  refine Finset.sum_congr rfl fun n _ => ?_
  rw [splat_apply, one_f32]
  simp only [resultIdx1_iff]
  rfl

theorem hostDivf_apply {s : Shape} (a b : FVec Ideal s .f32) (i : s.Idx) : Host.divf a b i = Ideal.div (a i) (b i) := rfl

theorem dot_emb_apply (x : FVec Ideal S64x32 .f32) (y : FVec Ideal S32x16 .f32) (g : Fin 64) (e : Fin 16) :
    Host.dotGeneral dot_S64x32_S32x16_S64x16_1_0_0_1_n_n none x y (ix2 g e) = ∑ k : Fin 32, x (ix2 g k) * y (ix2 k e) :=
  StackMember.dotGeneral_plain_apply none x y g e

/-- The reference's pooling tail as a function of the features, the graph-id column, the embedding matrix and the bias row. -/
def RefPool {F : FTy → Type} [FloatOps F] (X : Vec F S100000x32 .f32) (G : Vec F S100000x1 .i32) (We : Vec F S32x16 .f32)
    (B1 : Vec F S1x16 .f32) : Vec F S64x16 .f32 :=
  addf (Host.dotGeneral dot_S64x32_S32x16_S64x16_1_0_0_1_n_n none (Host.divf (Host.scatterAdd scatter_S64x32_S100000x1_S100000x32_1_0_0_1 (broadcastInDim S64x32 ![] bcast_S_S64x32 (constant S_ .f32 0x00000000#32)) G X) (broadcastInDim S64x32 ![0, 1] bcast_S64x1_S64x32_0_1 (broadcastInDim S64x1 ![0] bcast_S64_S64x1_0 (maximumf (broadcastInDim S64 ![] bcast_S_S64 (id (constant S_ .f32 0x3F800000#32))) (Host.scatterAdd scatter_S64_S100000x1_S100000_n_0_0_1 (broadcastInDim S64 ![] bcast_S_S64 (constant S_ .f32 0x00000000#32)) G (broadcastInDim S100000 ![] bcast_S_S100000 (constant S_ .f32 0x3F800000#32))))))) We) (broadcastInDim S64x16 ![0, 1] bcast_S1x16_S64x16_0_1 B1)

/-- Reading every operation of the tail at (g, e) gives the pooled value. -/
theorem RefPool_apply (X : Vec Ideal S100000x32 .f32) (G : Vec Ideal S100000x1 .i32) (We : Vec Ideal S32x16 .f32)
    (B1 : Vec Ideal S1x16 .f32) (g : Fin 64) (e : Fin 16) :
    RefPool (F := Ideal) X G We B1 (ix2 g e) = poolAt X G We B1 g e := by
  unfold RefPool poolAt
  rw [addf_apply, dot_emb_apply]
  refine congrArg₂ (· + ·) (Finset.sum_congr rfl fun h _ => ?_) (broadcastInDim_oneRow_apply bcast_S1x16_S64x16_0_1 B1 g e)
  rw [mul_comm]
  refine congrArg (We (ix2 h e) * ·) ?_
  rw [hostDivf_apply, sums_apply]
  refine congrArg (Ideal.div (nodeSum X G h g)) ?_
  refine (broadcastInDim_apply _ bcast_S64x1_S64x32_0_1 _ (ix2 g h) (ix2 g (0 : Fin 1)) (fun a => match a with
    | ⟨0, _⟩ => by show g.val = if (64 : Nat) = 1 then 0 else g.val; rw [if_neg (by decide)]
    | ⟨1, _⟩ => by show 0 = if (1 : Nat) = 1 then 0 else h.val; rw [if_pos rfl])).trans ?_
  refine (broadcastInDim_apply _ bcast_S64_S64x1_0 _ (ix2 g (0 : Fin 1)) (ix1 g) (fun a => match a with
    | ⟨0, _⟩ => by show g.val = if (64 : Nat) = 1 then 0 else g.val; rw [if_neg (by decide)])).trans ?_
  rw [maximumf_apply, counts_apply, max_comm]
  exact congrArg (max (nodeCnt G g)) ((splat_apply _ _ _).trans one_f32)

end Cert.ReferenceIdeal.Pool

end
-- ==== Proof.Val.RefFn.lean ====
import proofs.«424855_j19189913879214_2_alg».proof.Proof.Val.PoolRef

noncomputable section

namespace Cert.ReferenceIdeal.Val

open Cert.ReferenceIdeal Cert.ReferenceIdeal.Gen Idealize.ShloMosaic

variable {F : FTy → Type} [FloatOps F]

/-- `1 / sqrt (max 1 (deg v))`, where `deg v` counts the entries of `idx` equal to `v`. -/
def invSqrtDegR (idx : Vec F S3200000 .i32) : Vec F S100000 .f32 :=
  Host.rsqrt (maximumf (broadcastInDim S100000 ![] bcast_S_S100000 (constant S_ .f32 0x3F800000#32))
    (Host.scatterAdd scatter_S100000_S3200000x1_S3200000_n_0_0_1
      (broadcastInDim S100000 ![] bcast_S_S100000 (constant S_ .f32 0x00000000#32))
      (broadcastInDim S3200000x1 ![0] bcast_S3200000_S3200000x1_0 idx)
      (broadcastInDim S3200000 ![] bcast_S_S3200000 (constant S_ .f32 0x3F800000#32))))

/-- The first layer's transform, the row scale given as a column: `(x * ncol) W`. -/
def xform1R' (x : Vec F S100000x128 .f32) (ncol : Vec F S100000x1 .f32) (W : Vec F S128x32 .f32) : Vec F S100000x32 .f32 :=
  Host.dotGeneral dot_S100000x128_S128x32_S100000x32_1_0_0_1_n_n none
    (mulf x (broadcastInDim S100000x128 ![0, 1] bcast_S100000x1_S100000x128_0_1 ncol)) W

/-- A later layer's transform: the same on 32 features. -/
def xformR' (x : Vec F S100000x32 .f32) (ncol : Vec F S100000x1 .f32) (W : Vec F S32x32 .f32) : Vec F S100000x32 .f32 :=
  Host.dotGeneral dot_S100000x32_S32x32_S100000x32_1_0_0_1_n_n none
    (mulf x (broadcastInDim S100000x32 ![0, 1] bcast_S100000x1_S100000x32_0_1 ncol)) W

/-- Message passing: row `v` sums the rows `h (src e)` over the edges `e` with `dst e = v`, a negative `src e` counted from the end. -/
def aggR (h : Vec F S100000x32 .f32) (src dst : Vec F S3200000 .i32) : Vec F S100000x32 .f32 :=
  Host.scatterAdd scatter_S100000x32_S3200000x1_S3200000x32_1_0_0_1
    (broadcastInDim S100000x32 ![] bcast_S_S100000x32 (constant S_ .f32 0x00000000#32))
    (broadcastInDim S3200000x1 ![0] bcast_S3200000_S3200000x1_0 dst)
    (Host.gather gather_S100000x32_S3200000x1_S3200000x32_1_0_n_n_0_1_132 h
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32))) src)))

/-- A layer's end, the row scale given as a column and the bias as a row: `max (agg * ncol + brow) 0`. -/
def finalizeR' (agg : Vec F S100000x32 .f32) (ncol : Vec F S100000x1 .f32) (brow : Vec F S1x32 .f32) : Vec F S100000x32 .f32 :=
  maximumf (addf (mulf agg (broadcastInDim S100000x32 ![0, 1] bcast_S100000x1_S100000x32_0_1 ncol))
      (broadcastInDim S100000x32 ![0, 1] bcast_S1x32_S100000x32_0_1 brow))
    (broadcastInDim S100000x32 ![] bcast_S_S100000x32 (constant S_ .f32 0x00000000#32))

/-- The pooling tail, the graph ids given as a column and the bias as a row. -/
abbrev poolR' := Pool.RefPool (F := F)

/-- One layer, vectors laid out as columns by `c` and the bias as a row by `r`: scale, transform by `xf`, pass messages, finalize. -/
def layerG {X W : Type} (xf : X → Vec F S100000x1 .f32 → W → Vec F S100000x32 .f32)
    (c : Vec F S100000 .f32 → Vec F S100000x1 .f32) (r : Vec F S32 .f32 → Vec F S1x32 .f32) (x : X) (w : W)
    (b : Vec F S32 .f32) (src dst : Vec F S3200000 .i32) (onorm inorm : Vec F S100000 .f32) : Vec F S100000x32 .f32 :=
  finalizeR' (aggR (xf x (c onorm) w) src dst) (c inorm) (r b)

/-- The network over the layouts `c`, `r`, `r'`: three layers scaled by the degrees' inverse square roots, then the pool. -/
def netG (c : ∀ {e}, Vec F S100000 e → Vec F S100000x1 e) (r : Vec F S32 .f32 → Vec F S1x32 .f32)
    (r' : Vec F S16 .f32 → Vec F S1x16 .f32) (x : Vec F S100000x128 .f32) (src dst : Vec F S3200000 .i32)
    (gid : Vec F S100000 .i32) (W1 : Vec F S128x32 .f32) (b1 : Vec F S32 .f32) (W2 : Vec F S32x32 .f32)
    (b2 : Vec F S32 .f32) (W3 : Vec F S32x32 .f32) (b3 : Vec F S32 .f32) (We : Vec F S32x16 .f32) (be : Vec F S16 .f32) :
    Vec F S64x16 .f32 :=
  let o := invSqrtDegR src
  let i := invSqrtDegR dst
  poolR' (layerG xformR' c r (layerG xformR' c r (layerG xform1R' c r x W1 b1 src dst o i) W2 b2 src dst o i) W3 b3 src dst o i)
    (c gid) We (r' be)

/-- The reference's network: it lays a vector out as a column or a row by a broadcast. -/
def netR := netG (F := F) (broadcastInDim S100000x1 ![0] bcast_S100000_S100000x1_0)
  (broadcastInDim S1x32 ![1] bcast_S32_S1x32_1) (broadcastInDim S1x16 ![1] bcast_S16_S1x16_1)

end Cert.ReferenceIdeal.Val

end
-- ==== Proof.Val.KerFn.lean ====
import proofs.«424855_j19189913879214_2_alg».proof.Proof.Gen.KernelIdeal
import proofs.«424855_j19189913879214_2_alg».proof.Proof.Val.Layout
import proofs.«424855_j19189913879214_2_alg».proof.Proof.Val.RefFn

noncomputable section

namespace Cert.KernelIdeal.Val

open Cert.KernelIdeal Cert.KernelIdeal.Gen Idealize.ShloMosaic Cert.ReferenceIdeal.Val

variable {F : FTy → Type} [FloatOps F]

abbrev A (s : Shape) (e : EltTy) : Type := Vec F s e

def invSqrtDegK := invSqrtDegR (F := F)

def aggK := aggR (F := F)

/-- The kernel program lays a vector out as a column, and a bias as a row, by a reshape. -/
def colK {α : Type} (x : S100000.Idx → α) : S100000x1.Idx → α := shapeCast S100000x1 x shapeCasts_S100000_S100000x1

def row32K {α : Type} (x : S32.Idx → α) : S1x32.Idx → α := shapeCast S1x32 x shapeCasts_S32_S1x32

def row16K {α : Type} (x : S16.Idx → α) : S1x16.Idx → α := shapeCast S1x16 x shapeCasts_S16_S1x16

def layer1K := layerG (F := F) xform1R' colK row32K

def layerK := layerG (F := F) xformR' colK row32K

def netK := netG (F := F) colK row32K row16K

/-- The kernel program's network is the reference's: each reshape reads what the reference's broadcast reads. -/
theorem netK_eq (x : A (F := F) S100000x128 .f32) (src dst : A (F := F) S3200000 .i32) (gid : A (F := F) S100000 .i32)
    (W1 : A (F := F) S128x32 .f32) (b1 : A (F := F) S32 .f32) (W2 : A (F := F) S32x32 .f32) (b2 : A (F := F) S32 .f32)
    (W3 : A (F := F) S32x32 .f32) (b3 : A (F := F) S32 .f32) (We : A (F := F) S32x16 .f32) (be : A (F := F) S16 .f32) :
    netK x src dst gid W1 b1 W2 b2 W3 b3 We be = netR x src dst gid W1 b1 W2 b2 W3 b3 We be := by
  simp only [netK, netR, netG, layerG, colK, row32K, row16K,
    shapeCast_col_eq_broadcastInDim 100000 _ Cert.ReferenceIdeal.Gen.bcast_S100000_S100000x1_0,
    shapeCast_row_eq_broadcastInDim 32 _ Cert.ReferenceIdeal.Gen.bcast_S32_S1x32_1,
    shapeCast_row_eq_broadcastInDim 16 _ Cert.ReferenceIdeal.Gen.bcast_S16_S1x16_1]

end Cert.KernelIdeal.Val

end
-- ==== Proof.Val.Stretch.lean ====
import proofs.«424855_j19189913879214_2_alg».proof.Proof.Gen.KernelIdeal.Launch
import proofs.«424855_j19189913879214_2_alg».proof.Proof.Val.KerFn
import Idealize.ShloMosaic.Lib.StableHlo.Run

noncomputable section

namespace Cert.KernelIdeal.Val

open Cert.KernelIdeal Cert.KernelIdeal.Gen Idealize.ShloMosaic Idealize.ShloMosaic.TcCoe
open Idealize.ShloMosaic.StableHlo

variable {F : FTy → Type} [FloatOps F] (V : Valuation τ sig (Elt F))

/-- The five stretches before the first region, in order. -/
abbrev pre (V : Valuation τ sig (Elt F)) : Valuation τ sig (Elt F) :=
  after hostOps0_4 (after hostOps0_3 (after hostOps0_2 (after hostOps0_1 (after hostOps0 V))))

theorem pre_v9 : pre V main_v9 = invSqrtDegK (V main_arg1) := by after_results; rfl
theorem pre_v10 : pre V main_v10 = invSqrtDegK (V main_arg2) := by after_results; rfl
theorem pre_v11 : pre V main_v11 = colK (invSqrtDegK (V main_arg1)) := by after_results; rfl

theorem hostOps1_v22 : after hostOps1 V main_v22 = aggK (V main_v12) (V main_arg1) (V main_arg2) := by after_results_simp; rfl
theorem hostOps1_v23 : after hostOps1 V main_v23 = colK (V main_v10) := by after_results; rfl
theorem hostOps1_v24 : after hostOps1 V main_v24 = row32K (V main_arg5) := by after_results; rfl

theorem hostOps2_v26 : after hostOps2 V main_v26 = colK (V main_v9) := by after_results; rfl

theorem hostOps3_v37 : after hostOps3 V main_v37 = aggK (V main_v27) (V main_arg1) (V main_arg2) := by after_results_simp; rfl
theorem hostOps3_v38 : after hostOps3 V main_v38 = colK (V main_v10) := by after_results; rfl
theorem hostOps3_v39 : after hostOps3 V main_v39 = row32K (V main_arg7) := by after_results; rfl

theorem hostOps4_v41 : after hostOps4 V main_v41 = colK (V main_v9) := by after_results; rfl

theorem hostOps5_v52 : after hostOps5 V main_v52 = aggK (V main_v42) (V main_arg1) (V main_arg2) := by after_results_simp; rfl
theorem hostOps5_v53 : after hostOps5 V main_v53 = colK (V main_v10) := by after_results; rfl
theorem hostOps5_v54 : after hostOps5 V main_v54 = row32K (V main_arg9) := by after_results; rfl

theorem hostOps6_v56 : after hostOps6 V main_v56 = colK (V main_arg3) := by after_results; rfl
theorem hostOps6_v57 : after hostOps6 V main_v57 = row16K (V main_arg11) := by after_results; rfl

end Cert.KernelIdeal.Val

end
-- ==== Proof.Val.TMath.lean ====
import proofs.«424855_j19189913879214_2_alg».proof.Proof.Gen.KernelIdeal.Skeleton
import Idealize.ShloMosaic.Lib.StackMember

noncomputable section

namespace Cert.KernelIdeal.Val

open Cert.KernelIdeal Cert.KernelIdeal.Gen
open Idealize.ShloMosaic Idealize.ShloMosaic.ValueIdx
open scoped BigOperators

/-- A column laid along every row reads, at `(r, c)`, the column's entry of row `r`. -/
theorem broadcastTo_a1_ab_apply {α : Type} {a b : Nat} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r 0) :=
  broadcastTo_apply v h (ix2 r c) (ix2 r 0) fun ax => match ax with
    | ⟨0, _⟩ => by show r.val = if a = 1 then 0 else r.val; split <;> omega
    | ⟨1, _⟩ => (if_pos rfl).symm

/-- Rows scaled by their norms times the weights: entry `(r, j)` sums `(x r c * s r) * w c j` over the contracted axis. -/
theorem scaled_matmul_apply {m k n : Nat} (x : FVec Ideal ⟨2, ![m, k]⟩ .f32) (s : FVec Ideal ⟨2, ![m, 1]⟩ .f32)
    (w : FVec Ideal ⟨2, ![k, n]⟩ .f32) (hs : (⟨2, ![m, 1]⟩ : Shape).ShapeCasts ⟨2, ![m, 1]⟩)
    (hb : (⟨2, ![m, 1]⟩ : Shape).Broadcasts ⟨2, ![m, k]⟩) (hlt : FTy.bits .bf16 < FTy.bits .f32) (r : Fin m) (j : Fin n) :
    matmul (DotDims.plain m k n) none (truncf .bf16 (mulf x (broadcastTo ⟨2, ![m, k]⟩ (shapeCast ⟨2, ![m, 1]⟩ s hs) hb)) hlt)
        (truncf .bf16 w hlt) (constant ⟨2, ![m, n]⟩ .f32 0x00000000#32) (ix2 r j)
      = ∑ c : Fin k, (x (ix2 r c) * s (ix2 r 0)) * w (ix2 c j) := by
  rw [matmul_zero_eq_dotGeneral, StackMember.dotGeneral_plain_apply]
  refine Finset.sum_congr rfl fun c _ => ?_
  rw [truncf_apply, truncf_apply, mulf_apply, shapeCast_self, broadcastTo_a1_ab_apply]

theorem k0_pay1_apply (x : Vec Ideal S10000x128 .f32) (s : Vec Ideal S10000x1 .f32) (w : Vec Ideal S128x32 .f32)
    (r : Fin 10000) (j : Fin 32) :
    k0_pay1 (F := Ideal) x s w (ix2 r j) = ∑ k : Fin 128, (x (ix2 r k) * s (ix2 r 0)) * w (ix2 k j) :=
  scaled_matmul_apply x s w _ _ _ r j

theorem k2_pay1_apply (x : Vec Ideal S10000x32 .f32) (s : Vec Ideal S10000x1 .f32) (w : Vec Ideal S32x32 .f32)
    (r : Fin 10000) (j : Fin 32) :
    k2_pay1 (F := Ideal) x s w (ix2 r j) = ∑ k : Fin 32, (x (ix2 r k) * s (ix2 r 0)) * w (ix2 k j) := by
  unfold k2_pay1
  rw [shapeCast_self x]
  exact scaled_matmul_apply x s w _ _ _ r j

theorem k4_pay1_apply (x : Vec Ideal S10000x32 .f32) (s : Vec Ideal S10000x1 .f32) (w : Vec Ideal S32x32 .f32)
    (r : Fin 10000) (j : Fin 32) :
    k4_pay1 (F := Ideal) x s w (ix2 r j) = ∑ k : Fin 32, (x (ix2 r k) * s (ix2 r 0)) * w (ix2 k j) :=
  k2_pay1_apply x s w r j

end Cert.KernelIdeal.Val

end
-- ==== Proof.Val.RMath.lean ====
import proofs.«424855_j19189913879214_2_alg».proof.Proof.Gen.ReferenceIdeal
import Idealize.ShloMosaic.Lib.StackMember
import Idealize.ShloMosaic.Lib.IdealHost

noncomputable section

namespace Cert.ReferenceIdeal.Val

open Cert.ReferenceIdeal Cert.ReferenceIdeal.Gen
open Idealize.ShloMosaic Idealize.ShloMosaic.ValueIdx
open scoped BigOperators

/-- A column laid along every row reads, at `(i, c)`, the column's entry of row `i`. -/
theorem broadcastInDim_oneCol_apply {α : Type} {m n : Nat}
    (h : (⟨2, ![m, 1]⟩ : Shape).BroadcastsInDim ⟨2, ![m, n]⟩ ![0, 1]) (v : (⟨2, ![m, 1]⟩ : Shape).Idx → α)
    (i : Fin m) (c : Fin n) : broadcastInDim ⟨2, ![m, n]⟩ ![0, 1] h v (ix2 i c) = v (ix2 i 0) :=
  broadcastInDim_apply ![0, 1] h v (ix2 i c) (ix2 i 0) fun ax => match ax with
    | ⟨0, _⟩ => by show i.val = if m = 1 then 0 else i.val; split <;> omega
    | ⟨1, _⟩ => (if_pos rfl).symm

/-- Rows scaled by their norms times the weights: entry `(i, j)` sums `(X i c * N i) * W c j` over the contracted axis. -/
theorem transform_apply {m k n : Nat} (X : FVec Ideal ⟨2, ![m, k]⟩ .f32) (N1 : FVec Ideal ⟨2, ![m, 1]⟩ .f32)
    (Wt : FVec Ideal ⟨2, ![k, n]⟩ .f32) (h : (⟨2, ![m, 1]⟩ : Shape).BroadcastsInDim ⟨2, ![m, k]⟩ ![0, 1])
    (i : Fin m) (j : Fin n) :
    Host.dotGeneral (DotDims.plain m k n) none (mulf X (broadcastInDim ⟨2, ![m, k]⟩ ![0, 1] h N1)) Wt (ix2 i j)
      = ∑ c : Fin k, (X (ix2 i c) * N1 (ix2 i 0)) * Wt (ix2 c j) := by
  rw [StackMember.dotGeneral_plain_apply]
  refine Finset.sum_congr rfl fun c _ => ?_
  rw [mulf_apply, broadcastInDim_oneCol_apply]

theorem transform128_apply (X : FVec Ideal S100000x128 .f32) (N1 : FVec Ideal S100000x1 .f32) (Wt : FVec Ideal S128x32 .f32)
    (i : Fin 100000) (j : Fin 32) :
    Host.dotGeneral dot_S100000x128_S128x32_S100000x32_1_0_0_1_n_n none
        (mulf X (broadcastInDim S100000x128 ![0, 1] bcast_S100000x1_S100000x128_0_1 N1)) Wt (ix2 i j)
      = ∑ k : Fin 128, (X (ix2 i k) * N1 (ix2 i 0)) * Wt (ix2 k j) :=
  transform_apply X N1 Wt _ i j

theorem transform32_apply (X : FVec Ideal S100000x32 .f32) (N1 : FVec Ideal S100000x1 .f32) (Wt : FVec Ideal S32x32 .f32)
    (i : Fin 100000) (j : Fin 32) :
    Host.dotGeneral dot_S100000x32_S32x32_S100000x32_1_0_0_1_n_n none
        (mulf X (broadcastInDim S100000x32 ![0, 1] bcast_S100000x1_S100000x32_0_1 N1)) Wt (ix2 i j)
      = ∑ k : Fin 32, (X (ix2 i k) * N1 (ix2 i 0)) * Wt (ix2 k j) :=
  transform_apply X N1 Wt _ i j

/-- Scale by the row norm, add the column's bias, clamp below at zero. -/
theorem finalize_apply (A : FVec Ideal S100000x32 .f32) (N1 : FVec Ideal S100000x1 .f32) (B1 : FVec Ideal S1x32 .f32)
    (i : Fin 100000) (j : Fin 32) :
    maximumf (addf (mulf A (broadcastInDim S100000x32 ![0, 1] bcast_S100000x1_S100000x32_0_1 N1))
          (broadcastInDim S100000x32 ![0, 1] bcast_S1x32_S100000x32_0_1 B1))
        (broadcastInDim S100000x32 ![] bcast_S_S100000x32 (constant (F := Ideal) S_ .f32 0x00000000#32)) (ix2 i j)
      = max (A (ix2 i j) * N1 (ix2 i 0) + B1 (ix2 0 j)) 0 := by
  rw [maximumf_apply, addf_apply, mulf_apply, broadcastInDim_oneCol_apply, broadcastInDim_oneRow_apply,
    broadcastInDim_scalar_apply]
  exact congrArg (max _) Ideal.ofBits_zero_f32

end Cert.ReferenceIdeal.Val

end
-- ==== Proof.Val.Blk.lean ====
import Idealize.ShloMosaic.Lib.Pipeline.Value

namespace Cert.KernelIdeal.Val

open Idealize.ShloMosaic

theorem zero_off : (![0, 0] : Fin 2 → Nat) = fun _ => 0 := funext (Fin.forall_fin_two.mpr ⟨rfl, rfl⟩)

/-- A block's entry `x` sits in the array, on each axis, at the block index times the block's size plus `x`'s coordinate. -/
theorem rect_emb_eq {sig : RefSig} {G : Pipeline.Grid} (w : Pipeline.Window sig G) (t : Fin G.N) {n : Fin w.shape.rank → Nat}
    (hn : w.index t = n) (x : (w.xblock (G.coords t)).Idx) (k : w.shape.Idx) (h : ∀ a, n a * w.size a + x a = k a) :
    (w.rect t).emb x = k :=
  funext fun a => Fin.ext ((w.rect_emb_val t x a).trans (hn ▸ h a))

end Cert.KernelIdeal.Val
-- ==== Proof.Val.T0v.lean ====
import proofs.«424855_j19189913879214_2_alg».proof.Proof.KI.T0
import proofs.«424855_j19189913879214_2_alg».proof.Proof.Val.TMath
import proofs.«424855_j19189913879214_2_alg».proof.Proof.Val.RMath
import proofs.«424855_j19189913879214_2_alg».proof.Proof.Val.Blk

noncomputable section

namespace Cert.KernelIdeal.Val

open Cert.KernelIdeal Cert.KernelIdeal.Gen Cert.KernelIdeal.Fr
open Idealize.ShloMosaic Idealize.ShloMosaic.TcCoe Idealize.ShloMosaic.ValueIdx

variable (V : (c : Dev nD) → (b : Ref sig .tc) → Buf (Elt Ideal) ((c : Thread nD τ).loc b))

/-- The whole-array product `(X * rownorm) @ W` the reference computes from the three arrays. -/
abbrev prod0 (X : FVec Ideal S100000x128 .f32) (N1 : FVec Ideal S100000x1 .f32) (Wt : FVec Ideal S128x32 .f32) :
    FVec Ideal S100000x32 .f32 :=
  Host.dotGeneral Cert.ReferenceIdeal.dot_S100000x128_S128x32_S100000x32_1_0_0_1_n_n none
    (mulf X (broadcastInDim S100000x128 ![0, 1] Cert.ReferenceIdeal.Facts₀.bcast_S100000x1_S100000x128_0_1 N1)) Wt

/-- The windows' block indices at point `t`, decided over the grid. -/
theorem idx_facts0 : ∀ t : Fin cfg0.N, win0_0.index t = ![t.val, 0] ∧ win0_1.index t = ![t.val, 0]
    ∧ win0_2.index t = ![0, 0] ∧ win0_3.index t = ![t.val, 0] :=
  (by decide +kernel : ∀ t : Fin grid0.N, _)

/-- Row `r` of block `t` is row `10000 t + r` of each row-blocked array, and a row of a product needs only that row of the left factor. -/
theorem flushed0_eq (c : Dev nD) (t : Fin cfg0.N) :
    (dat0 V c).flushed 3 t
      = ((cfg0.win 3).blk t).view.read (Elt Ideal) (prod0 (V c main_arg0) (V c main_v11) (V c main_arg4)) := by
  obtain ⟨e0, e1, e2, e3⟩ := idx_facts0 t
  show (cfg0.win 3).cut (grid0.coords t) ((dat0 V c).after 3 t) = _
  rw [after0_3]
  unfold out0_3
  rw [View.canon_unit_zero zero_off, View.ld_unit_zero zero_off, View.ld_unit_zero zero_off, View.ld_unit_zero zero_off]
  refine funext fun (y : S10000x32.Idx) => ?_
  obtain ⟨r, j, rfl⟩ : ∃ (r : Fin 10000) (j : Fin 32), y = ix2 r j := ⟨y 0, y 1, eq_ix2 y⟩
  have hi : t.val * 10000 + r.val < 100000 := by have := lt_of_lt_of_eq t.isLt N_0; omega
  show k0_pay1 _ _ _ (ix2 r j) = prod0 _ _ _ ((win0_3.rect t).emb (ix2 r j))
  rw [rect_emb_eq win0_3 t e3 (ix2 r j) (ix2 ⟨_, hi⟩ j) (Fin.forall_fin_two.mpr ⟨rfl, Nat.zero_add _⟩), k0_pay1_apply]
  refine Eq.trans ?_ (Cert.ReferenceIdeal.Val.transform128_apply _ _ _ _ j).symm
  refine Finset.sum_congr rfl fun k _ => ?_
  exact congrArg₂ (· * ·) (congrArg₂ (· * ·)
      (congrArg (V c main_arg0) (rect_emb_eq win0_0 t e0 (ix2 r k) (ix2 ⟨_, hi⟩ k) (Fin.forall_fin_two.mpr ⟨rfl, Nat.zero_add _⟩)))
      (congrArg (V c main_v11) (rect_emb_eq win0_1 t e1 (ix2 r 0) (ix2 ⟨_, hi⟩ 0) (Fin.forall_fin_two.mpr ⟨rfl, Nat.zero_add _⟩))))
    (congrArg (V c main_arg4) (rect_emb_eq win0_2 t e2 (ix2 k j) (ix2 k j) (Fin.forall_fin_two.mpr ⟨Nat.zero_add _, Nat.zero_add _⟩)))

/-- Row `i` of the output array is row `i % 10000` of the block of point `i / 10000`. -/
theorem cover0 (i : S100000x32.Idx) :
    ∃ t : Fin cfg0.N, (cfg0.win 3).flush t = true ∧ i ∈ ((cfg0.win 3).blk t).view.set :=
  have hlt : (i 0).val / 10000 < grid0.N := lt_of_lt_of_eq (Nat.div_lt_of_lt_mul (i 0).isLt) N_0.symm
  ⟨⟨_, hlt⟩, flush0_3 _, Finset.mem_map.mpr ⟨ix2 ⟨(i 0).val % 10000, Nat.mod_lt _ (by decide)⟩ (i 1), Finset.mem_univ _,
    rect_emb_eq win0_3 ⟨_, hlt⟩ (idx_facts0 _).2.2.2 _ i (Fin.forall_fin_two.mpr ⟨Nat.div_add_mod' _ _, Nat.zero_add _⟩)⟩⟩

/-- The output array after the region: the reference's whole-array product of the arrays the region was entered with. -/
theorem arr0_eq (c : Dev nD) :
    (dat0 (F := Ideal) V c).arrAt 3 cfg0.N
      = Host.dotGeneral (F := Ideal) (φ₁ := .f32) (φ₂ := .f32) Cert.ReferenceIdeal.dot_S100000x128_S128x32_S100000x32_1_0_0_1_n_n none
          (mulf (F := Ideal) (φ := .f32) (V c main_arg0)
            (broadcastInDim (α := Ideal .f32) S100000x128 ![0, 1] Cert.ReferenceIdeal.Facts₀.bcast_S100000x1_S100000x128_0_1 (V c main_v11)))
          (V c main_arg4) :=
  (dat0 V c).arrAt_eq_of_cover 3 _ (fun t _ => flushed0_eq V c t) cover0

end Cert.KernelIdeal.Val

end
-- ==== Proof.Val.FMath.lean ====
import proofs.«424855_j19189913879214_2_alg».proof.Proof.Gen.KernelIdeal.Skeleton
import proofs.«424855_j19189913879214_2_alg».proof.Proof.Val.TMath
import Idealize.ShloMosaic.Lib.ValueLayout

noncomputable section

namespace Cert.KernelIdeal.Val

open Cert.KernelIdeal Cert.KernelIdeal.Gen
open Idealize.ShloMosaic Idealize.ShloMosaic.ValueIdx

/-- Scale by the row norm, add the column's bias, clamp below at zero. -/
theorem k1_pay1_apply (a : Vec Ideal S10000x32 .f32) (s : Vec Ideal S10000x1 .f32) (b : Vec Ideal S1x32 .f32)
    (r : Fin 10000) (j : Fin 32) :
    k1_pay1 (F := Ideal) a s b (ix2 r j) = max (a (ix2 r j) * s (ix2 r 0) + b (ix2 0 j)) 0 := by
  unfold k1_pay1
  rw [maximumf_apply, addf_apply, mulf_apply, shapeCast_self a, shapeCast_self s, shapeCast_self b,
    broadcastTo_a1_ab_apply, broadcastTo_1b_ab_apply, broadcast_apply]
  exact congrArg (max _) Ideal.ofBits_zero_f32

theorem k3_pay1_apply (a : Vec Ideal S10000x32 .f32) (s : Vec Ideal S10000x1 .f32) (b : Vec Ideal S1x32 .f32)
    (r : Fin 10000) (j : Fin 32) :
    k3_pay1 (F := Ideal) a s b (ix2 r j) = max (a (ix2 r j) * s (ix2 r 0) + b (ix2 0 j)) 0 :=
  k1_pay1_apply a s b r j

theorem k5_pay1_apply (a : Vec Ideal S10000x32 .f32) (s : Vec Ideal S10000x1 .f32) (b : Vec Ideal S1x32 .f32)
    (r : Fin 10000) (j : Fin 32) :
    k5_pay1 (F := Ideal) a s b (ix2 r j) = max (a (ix2 r j) * s (ix2 r 0) + b (ix2 0 j)) 0 :=
  k1_pay1_apply a s b r j

end Cert.KernelIdeal.Val

end
-- ==== Proof.Val.F1v.lean ====
import proofs.«424855_j19189913879214_2_alg».proof.Proof.KI.F1
import proofs.«424855_j19189913879214_2_alg».proof.Proof.Val.FMath
import proofs.«424855_j19189913879214_2_alg».proof.Proof.Val.RMath
import proofs.«424855_j19189913879214_2_alg».proof.Proof.Val.Blk

noncomputable section

namespace Cert.KernelIdeal.Val

open Cert.KernelIdeal Cert.KernelIdeal.Gen Cert.KernelIdeal.Fr
open Idealize.ShloMosaic Idealize.ShloMosaic.TcCoe Idealize.ShloMosaic.ValueIdx

variable (V : (c : Dev nD) → (b : Ref sig .tc) → Buf (Elt Ideal) ((c : Thread nD τ).loc b))

/-- The whole-array result `max (A * rownorm + bias) 0` the reference computes from the three arrays. -/
abbrev relu1 (A : FVec Ideal S100000x32 .f32) (N1 : FVec Ideal S100000x1 .f32) (B1 : FVec Ideal S1x32 .f32) :
    FVec Ideal S100000x32 .f32 :=
  maximumf (addf (mulf A (broadcastInDim S100000x32 ![0, 1] Cert.ReferenceIdeal.Facts₀.bcast_S100000x1_S100000x32_0_1 N1))
      (broadcastInDim S100000x32 ![0, 1] Cert.ReferenceIdeal.Facts₀.bcast_S1x32_S100000x32_0_1 B1))
    (broadcastInDim S100000x32 ![] Cert.ReferenceIdeal.Facts₀.bcast_S_S100000x32 (constant (F := Ideal) S_ .f32 0x00000000#32))

/-- The windows' block indices at point `t`, decided over the grid. -/
theorem idx_facts1 : ∀ t : Fin cfg1.N, win1_0.index t = ![t.val, 0] ∧ win1_1.index t = ![t.val, 0]
    ∧ win1_2.index t = ![0, 0] ∧ win1_3.index t = ![t.val, 0] :=
  (by decide +kernel : ∀ t : Fin grid1.N, _)

/-- Row `r` of block `t` is row `10000 t + r` of each row-blocked array, and the result is computed entry by entry. -/
theorem flushed1_eq (c : Dev nD) (t : Fin cfg1.N) :
    (dat1 V c).flushed 3 t
      = ((cfg1.win 3).blk t).view.read (Elt Ideal) (relu1 (V c main_v22) (V c main_v23) (V c main_v24)) := by
  obtain ⟨e0, e1, e2, e3⟩ := idx_facts1 t
  show (cfg1.win 3).cut (grid1.coords t) ((dat1 V c).after 3 t) = _
  rw [after1_3]
  unfold out1_3
  rw [View.canon_unit_zero zero_off, View.ld_unit_zero zero_off, View.ld_unit_zero zero_off, View.ld_unit_zero zero_off]
  refine funext fun (y : S10000x32.Idx) => ?_
  obtain ⟨r, j, rfl⟩ : ∃ (r : Fin 10000) (j : Fin 32), y = ix2 r j := ⟨y 0, y 1, eq_ix2 y⟩
  have hi : t.val * 10000 + r.val < 100000 := by have := lt_of_lt_of_eq t.isLt N_1; omega
  show k1_pay1 _ _ _ (ix2 r j) = relu1 _ _ _ ((win1_3.rect t).emb (ix2 r j))
  rw [rect_emb_eq win1_3 t e3 (ix2 r j) (ix2 ⟨_, hi⟩ j) (Fin.forall_fin_two.mpr ⟨rfl, Nat.zero_add _⟩), k1_pay1_apply]
  refine Eq.trans ?_ (Cert.ReferenceIdeal.Val.finalize_apply _ _ _ _ j).symm
  exact congrArg (max · 0) (congrArg₂ (· + ·) (congrArg₂ (· * ·)
      (congrArg (V c main_v22) (rect_emb_eq win1_0 t e0 (ix2 r j) (ix2 ⟨_, hi⟩ j) (Fin.forall_fin_two.mpr ⟨rfl, Nat.zero_add _⟩)))
      (congrArg (V c main_v23) (rect_emb_eq win1_1 t e1 (ix2 r 0) (ix2 ⟨_, hi⟩ 0) (Fin.forall_fin_two.mpr ⟨rfl, Nat.zero_add _⟩))))
    (congrArg (V c main_v24) (rect_emb_eq win1_2 t e2 (ix2 0 j) (ix2 0 j) (Fin.forall_fin_two.mpr ⟨Nat.zero_add _, Nat.zero_add _⟩))))

/-- Row `i` of the output array is row `i % 10000` of the block of point `i / 10000`. -/
theorem cover1 (i : S100000x32.Idx) :
    ∃ t : Fin cfg1.N, (cfg1.win 3).flush t = true ∧ i ∈ ((cfg1.win 3).blk t).view.set :=
  have hlt : (i 0).val / 10000 < grid1.N := lt_of_lt_of_eq (Nat.div_lt_of_lt_mul (i 0).isLt) N_1.symm
  ⟨⟨_, hlt⟩, flush1_3 _, Finset.mem_map.mpr ⟨ix2 ⟨(i 0).val % 10000, Nat.mod_lt _ (by decide)⟩ (i 1), Finset.mem_univ _,
    rect_emb_eq win1_3 ⟨_, hlt⟩ (idx_facts1 _).2.2.2 _ i (Fin.forall_fin_two.mpr ⟨Nat.div_add_mod' _ _, Nat.zero_add _⟩)⟩⟩

/-- The output array after the region: the reference's whole-array result of the arrays the region was entered with. -/
theorem arr1_eq (c : Dev nD) :
    (dat1 (F := Ideal) V c).arrAt 3 cfg1.N
      = maximumf (F := Ideal) (φ := .f32)
          (addf (F := Ideal) (φ := .f32)
            (mulf (F := Ideal) (φ := .f32) (V c main_v22)
              (broadcastInDim (α := Ideal .f32) S100000x32 ![0, 1] Cert.ReferenceIdeal.Facts₀.bcast_S100000x1_S100000x32_0_1 (V c main_v23)))
            (broadcastInDim (α := Ideal .f32) S100000x32 ![0, 1] Cert.ReferenceIdeal.Facts₀.bcast_S1x32_S100000x32_0_1 (V c main_v24)))
          (broadcastInDim S100000x32 ![] Cert.ReferenceIdeal.Facts₀.bcast_S_S100000x32 (constant (F := Ideal) S_ .f32 0x00000000#32)) :=
  (dat1 V c).arrAt_eq_of_cover 3 _ (fun t _ => flushed1_eq V c t) cover1

end Cert.KernelIdeal.Val

end
-- ==== Proof.Val.T2v.lean ====
import proofs.«424855_j19189913879214_2_alg».proof.Proof.KI.T2
import proofs.«424855_j19189913879214_2_alg».proof.Proof.Val.TMath
import proofs.«424855_j19189913879214_2_alg».proof.Proof.Val.RMath
import proofs.«424855_j19189913879214_2_alg».proof.Proof.Val.Blk

noncomputable section

namespace Cert.KernelIdeal.Val

open Cert.KernelIdeal Cert.KernelIdeal.Gen Cert.KernelIdeal.Fr
open Idealize.ShloMosaic Idealize.ShloMosaic.TcCoe Idealize.ShloMosaic.ValueIdx

variable (V : (c : Dev nD) → (b : Ref sig .tc) → Buf (Elt Ideal) ((c : Thread nD τ).loc b))

/-- The whole-array product `(X * rownorm) @ W` the reference computes from the three arrays. -/
abbrev prod2 (X : FVec Ideal S100000x32 .f32) (N1 : FVec Ideal S100000x1 .f32) (Wt : FVec Ideal S32x32 .f32) :
    FVec Ideal S100000x32 .f32 :=
  Host.dotGeneral Cert.ReferenceIdeal.dot_S100000x32_S32x32_S100000x32_1_0_0_1_n_n none
    (mulf X (broadcastInDim S100000x32 ![0, 1] Cert.ReferenceIdeal.Facts₀.bcast_S100000x1_S100000x32_0_1 N1)) Wt

/-- The windows' block indices at point `t`, decided over the grid. -/
theorem idx_facts2 : ∀ t : Fin cfg2.N, win2_0.index t = ![t.val, 0] ∧ win2_1.index t = ![t.val, 0]
    ∧ win2_2.index t = ![0, 0] ∧ win2_3.index t = ![t.val, 0] :=
  (by decide +kernel : ∀ t : Fin grid2.N, _)

/-- Row `r` of block `t` is row `10000 t + r` of each row-blocked array, and a row of a product needs only that row of the left factor. -/
theorem flushed2_eq (c : Dev nD) (t : Fin cfg2.N) :
    (dat2 V c).flushed 3 t
      = ((cfg2.win 3).blk t).view.read (Elt Ideal) (prod2 (V c main_v25) (V c main_v26) (V c main_arg6)) := by
  obtain ⟨e0, e1, e2, e3⟩ := idx_facts2 t
  show (cfg2.win 3).cut (grid2.coords t) ((dat2 V c).after 3 t) = _
  rw [after2_3]
  unfold out2_3
  rw [View.canon_unit_zero zero_off, View.ld_unit_zero zero_off, View.ld_unit_zero zero_off, View.ld_unit_zero zero_off]
  refine funext fun (y : S10000x32.Idx) => ?_
  obtain ⟨r, j, rfl⟩ : ∃ (r : Fin 10000) (j : Fin 32), y = ix2 r j := ⟨y 0, y 1, eq_ix2 y⟩
  have hi : t.val * 10000 + r.val < 100000 := by have := lt_of_lt_of_eq t.isLt N_2; omega
  show k2_pay1 _ _ _ (ix2 r j) = prod2 _ _ _ ((win2_3.rect t).emb (ix2 r j))
  rw [rect_emb_eq win2_3 t e3 (ix2 r j) (ix2 ⟨_, hi⟩ j) (Fin.forall_fin_two.mpr ⟨rfl, Nat.zero_add _⟩), k2_pay1_apply]
  refine Eq.trans ?_ (Cert.ReferenceIdeal.Val.transform32_apply _ _ _ _ j).symm
  refine Finset.sum_congr rfl fun k _ => ?_
  exact congrArg₂ (· * ·) (congrArg₂ (· * ·)
      (congrArg (V c main_v25) (rect_emb_eq win2_0 t e0 (ix2 r k) (ix2 ⟨_, hi⟩ k) (Fin.forall_fin_two.mpr ⟨rfl, Nat.zero_add _⟩)))
      (congrArg (V c main_v26) (rect_emb_eq win2_1 t e1 (ix2 r 0) (ix2 ⟨_, hi⟩ 0) (Fin.forall_fin_two.mpr ⟨rfl, Nat.zero_add _⟩))))
    (congrArg (V c main_arg6) (rect_emb_eq win2_2 t e2 (ix2 k j) (ix2 k j) (Fin.forall_fin_two.mpr ⟨Nat.zero_add _, Nat.zero_add _⟩)))

/-- Row `i` of the output array is row `i % 10000` of the block of point `i / 10000`. -/
theorem cover2 (i : S100000x32.Idx) :
    ∃ t : Fin cfg2.N, (cfg2.win 3).flush t = true ∧ i ∈ ((cfg2.win 3).blk t).view.set :=
  have hlt : (i 0).val / 10000 < grid2.N := lt_of_lt_of_eq (Nat.div_lt_of_lt_mul (i 0).isLt) N_2.symm
  ⟨⟨_, hlt⟩, flush2_3 _, Finset.mem_map.mpr ⟨ix2 ⟨(i 0).val % 10000, Nat.mod_lt _ (by decide)⟩ (i 1), Finset.mem_univ _,
    rect_emb_eq win2_3 ⟨_, hlt⟩ (idx_facts2 _).2.2.2 _ i (Fin.forall_fin_two.mpr ⟨Nat.div_add_mod' _ _, Nat.zero_add _⟩)⟩⟩

/-- The output array after the region: the reference's whole-array product of the arrays the region was entered with. -/
theorem arr2_eq (c : Dev nD) :
    (dat2 (F := Ideal) V c).arrAt 3 cfg2.N
      = Host.dotGeneral (F := Ideal) (φ₁ := .f32) (φ₂ := .f32) Cert.ReferenceIdeal.dot_S100000x32_S32x32_S100000x32_1_0_0_1_n_n none
          (mulf (F := Ideal) (φ := .f32) (V c main_v25)
            (broadcastInDim (α := Ideal .f32) S100000x32 ![0, 1] Cert.ReferenceIdeal.Facts₀.bcast_S100000x1_S100000x32_0_1 (V c main_v26)))
          (V c main_arg6) :=
  (dat2 V c).arrAt_eq_of_cover 3 _ (fun t _ => flushed2_eq V c t) cover2

end Cert.KernelIdeal.Val

end
-- ==== Proof.Val.F3v.lean ====
import proofs.«424855_j19189913879214_2_alg».proof.Proof.KI.F3
import proofs.«424855_j19189913879214_2_alg».proof.Proof.Val.FMath
import proofs.«424855_j19189913879214_2_alg».proof.Proof.Val.RMath
import proofs.«424855_j19189913879214_2_alg».proof.Proof.Val.Blk

noncomputable section

namespace Cert.KernelIdeal.Val

open Cert.KernelIdeal Cert.KernelIdeal.Gen Cert.KernelIdeal.Fr
open Idealize.ShloMosaic Idealize.ShloMosaic.TcCoe Idealize.ShloMosaic.ValueIdx

variable (V : (c : Dev nD) → (b : Ref sig .tc) → Buf (Elt Ideal) ((c : Thread nD τ).loc b))

/-- The whole-array result `max (A * rownorm + bias) 0` the reference computes from the three arrays. -/
abbrev relu3 (A : FVec Ideal S100000x32 .f32) (N1 : FVec Ideal S100000x1 .f32) (B1 : FVec Ideal S1x32 .f32) :
    FVec Ideal S100000x32 .f32 :=
  maximumf (addf (mulf A (broadcastInDim S100000x32 ![0, 1] Cert.ReferenceIdeal.Facts₀.bcast_S100000x1_S100000x32_0_1 N1))
      (broadcastInDim S100000x32 ![0, 1] Cert.ReferenceIdeal.Facts₀.bcast_S1x32_S100000x32_0_1 B1))
    (broadcastInDim S100000x32 ![] Cert.ReferenceIdeal.Facts₀.bcast_S_S100000x32 (constant (F := Ideal) S_ .f32 0x00000000#32))

/-- The windows' block indices at point `t`, decided over the grid. -/
theorem idx_facts3 : ∀ t : Fin cfg3.N, win3_0.index t = ![t.val, 0] ∧ win3_1.index t = ![t.val, 0]
    ∧ win3_2.index t = ![0, 0] ∧ win3_3.index t = ![t.val, 0] :=
  (by decide +kernel : ∀ t : Fin grid3.N, _)

/-- Row `r` of block `t` is row `10000 t + r` of each row-blocked array, and the result is computed entry by entry. -/
theorem flushed3_eq (c : Dev nD) (t : Fin cfg3.N) :
    (dat3 V c).flushed 3 t
      = ((cfg3.win 3).blk t).view.read (Elt Ideal) (relu3 (V c main_v37) (V c main_v38) (V c main_v39)) := by
  obtain ⟨e0, e1, e2, e3⟩ := idx_facts3 t
  show (cfg3.win 3).cut (grid3.coords t) ((dat3 V c).after 3 t) = _
  rw [after3_3]
  unfold out3_3
  rw [View.canon_unit_zero zero_off, View.ld_unit_zero zero_off, View.ld_unit_zero zero_off, View.ld_unit_zero zero_off]
  refine funext fun (y : S10000x32.Idx) => ?_
  obtain ⟨r, j, rfl⟩ : ∃ (r : Fin 10000) (j : Fin 32), y = ix2 r j := ⟨y 0, y 1, eq_ix2 y⟩
  have hi : t.val * 10000 + r.val < 100000 := by have := lt_of_lt_of_eq t.isLt N_3; omega
  show k3_pay1 _ _ _ (ix2 r j) = relu3 _ _ _ ((win3_3.rect t).emb (ix2 r j))
  rw [rect_emb_eq win3_3 t e3 (ix2 r j) (ix2 ⟨_, hi⟩ j) (Fin.forall_fin_two.mpr ⟨rfl, Nat.zero_add _⟩), k3_pay1_apply]
  refine Eq.trans ?_ (Cert.ReferenceIdeal.Val.finalize_apply _ _ _ _ j).symm
  exact congrArg (max · 0) (congrArg₂ (· + ·) (congrArg₂ (· * ·)
      (congrArg (V c main_v37) (rect_emb_eq win3_0 t e0 (ix2 r j) (ix2 ⟨_, hi⟩ j) (Fin.forall_fin_two.mpr ⟨rfl, Nat.zero_add _⟩)))
      (congrArg (V c main_v38) (rect_emb_eq win3_1 t e1 (ix2 r 0) (ix2 ⟨_, hi⟩ 0) (Fin.forall_fin_two.mpr ⟨rfl, Nat.zero_add _⟩))))
    (congrArg (V c main_v39) (rect_emb_eq win3_2 t e2 (ix2 0 j) (ix2 0 j) (Fin.forall_fin_two.mpr ⟨Nat.zero_add _, Nat.zero_add _⟩))))

/-- Row `i` of the output array is row `i % 10000` of the block of point `i / 10000`. -/
theorem cover3 (i : S100000x32.Idx) :
    ∃ t : Fin cfg3.N, (cfg3.win 3).flush t = true ∧ i ∈ ((cfg3.win 3).blk t).view.set :=
  have hlt : (i 0).val / 10000 < grid3.N := lt_of_lt_of_eq (Nat.div_lt_of_lt_mul (i 0).isLt) N_3.symm
  ⟨⟨_, hlt⟩, flush3_3 _, Finset.mem_map.mpr ⟨ix2 ⟨(i 0).val % 10000, Nat.mod_lt _ (by decide)⟩ (i 1), Finset.mem_univ _,
    rect_emb_eq win3_3 ⟨_, hlt⟩ (idx_facts3 _).2.2.2 _ i (Fin.forall_fin_two.mpr ⟨Nat.div_add_mod' _ _, Nat.zero_add _⟩)⟩⟩

/-- The output array after the region: the reference's whole-array result of the arrays the region was entered with. -/
theorem arr3_eq (c : Dev nD) :
    (dat3 (F := Ideal) V c).arrAt 3 cfg3.N
      = maximumf (F := Ideal) (φ := .f32)
          (addf (F := Ideal) (φ := .f32)
            (mulf (F := Ideal) (φ := .f32) (V c main_v37)
              (broadcastInDim (α := Ideal .f32) S100000x32 ![0, 1] Cert.ReferenceIdeal.Facts₀.bcast_S100000x1_S100000x32_0_1 (V c main_v38)))
            (broadcastInDim (α := Ideal .f32) S100000x32 ![0, 1] Cert.ReferenceIdeal.Facts₀.bcast_S1x32_S100000x32_0_1 (V c main_v39)))
          (broadcastInDim S100000x32 ![] Cert.ReferenceIdeal.Facts₀.bcast_S_S100000x32 (constant (F := Ideal) S_ .f32 0x00000000#32)) :=
  (dat3 V c).arrAt_eq_of_cover 3 _ (fun t _ => flushed3_eq V c t) cover3

end Cert.KernelIdeal.Val

end
-- ==== Proof.Val.T4v.lean ====
import proofs.«424855_j19189913879214_2_alg».proof.Proof.KI.T4
import proofs.«424855_j19189913879214_2_alg».proof.Proof.Val.TMath
import proofs.«424855_j19189913879214_2_alg».proof.Proof.Val.RMath
import proofs.«424855_j19189913879214_2_alg».proof.Proof.Val.Blk

noncomputable section

namespace Cert.KernelIdeal.Val

open Cert.KernelIdeal Cert.KernelIdeal.Gen Cert.KernelIdeal.Fr
open Idealize.ShloMosaic Idealize.ShloMosaic.TcCoe Idealize.ShloMosaic.ValueIdx

variable (V : (c : Dev nD) → (b : Ref sig .tc) → Buf (Elt Ideal) ((c : Thread nD τ).loc b))

/-- The whole-array product `(X * rownorm) @ W` the reference computes from the three arrays. -/
abbrev prod4 (X : FVec Ideal S100000x32 .f32) (N1 : FVec Ideal S100000x1 .f32) (Wt : FVec Ideal S32x32 .f32) :
    FVec Ideal S100000x32 .f32 :=
  Host.dotGeneral Cert.ReferenceIdeal.dot_S100000x32_S32x32_S100000x32_1_0_0_1_n_n none
    (mulf X (broadcastInDim S100000x32 ![0, 1] Cert.ReferenceIdeal.Facts₀.bcast_S100000x1_S100000x32_0_1 N1)) Wt

/-- The windows' block indices at point `t`, decided over the grid. -/
theorem idx_facts4 : ∀ t : Fin cfg4.N, win4_0.index t = ![t.val, 0] ∧ win4_1.index t = ![t.val, 0]
    ∧ win4_2.index t = ![0, 0] ∧ win4_3.index t = ![t.val, 0] :=
  (by decide +kernel : ∀ t : Fin grid4.N, _)

/-- Row `r` of block `t` is row `10000 t + r` of each row-blocked array, and a row of a product needs only that row of the left factor. -/
theorem flushed4_eq (c : Dev nD) (t : Fin cfg4.N) :
    (dat4 V c).flushed 3 t
      = ((cfg4.win 3).blk t).view.read (Elt Ideal) (prod4 (V c main_v40) (V c main_v41) (V c main_arg8)) := by
  obtain ⟨e0, e1, e2, e3⟩ := idx_facts4 t
  show (cfg4.win 3).cut (grid4.coords t) ((dat4 V c).after 3 t) = _
  rw [after4_3]
  unfold out4_3
  rw [View.canon_unit_zero zero_off, View.ld_unit_zero zero_off, View.ld_unit_zero zero_off, View.ld_unit_zero zero_off]
  refine funext fun (y : S10000x32.Idx) => ?_
  obtain ⟨r, j, rfl⟩ : ∃ (r : Fin 10000) (j : Fin 32), y = ix2 r j := ⟨y 0, y 1, eq_ix2 y⟩
  have hi : t.val * 10000 + r.val < 100000 := by have := lt_of_lt_of_eq t.isLt N_4; omega
  show k4_pay1 _ _ _ (ix2 r j) = prod4 _ _ _ ((win4_3.rect t).emb (ix2 r j))
  rw [rect_emb_eq win4_3 t e3 (ix2 r j) (ix2 ⟨_, hi⟩ j) (Fin.forall_fin_two.mpr ⟨rfl, Nat.zero_add _⟩), k4_pay1_apply]
  refine Eq.trans ?_ (Cert.ReferenceIdeal.Val.transform32_apply _ _ _ _ j).symm
  refine Finset.sum_congr rfl fun k _ => ?_
  exact congrArg₂ (· * ·) (congrArg₂ (· * ·)
      (congrArg (V c main_v40) (rect_emb_eq win4_0 t e0 (ix2 r k) (ix2 ⟨_, hi⟩ k) (Fin.forall_fin_two.mpr ⟨rfl, Nat.zero_add _⟩)))
      (congrArg (V c main_v41) (rect_emb_eq win4_1 t e1 (ix2 r 0) (ix2 ⟨_, hi⟩ 0) (Fin.forall_fin_two.mpr ⟨rfl, Nat.zero_add _⟩))))
    (congrArg (V c main_arg8) (rect_emb_eq win4_2 t e2 (ix2 k j) (ix2 k j) (Fin.forall_fin_two.mpr ⟨Nat.zero_add _, Nat.zero_add _⟩)))

/-- Row `i` of the output array is row `i % 10000` of the block of point `i / 10000`. -/
theorem cover4 (i : S100000x32.Idx) :
    ∃ t : Fin cfg4.N, (cfg4.win 3).flush t = true ∧ i ∈ ((cfg4.win 3).blk t).view.set :=
  have hlt : (i 0).val / 10000 < grid4.N := lt_of_lt_of_eq (Nat.div_lt_of_lt_mul (i 0).isLt) N_4.symm
  ⟨⟨_, hlt⟩, flush4_3 _, Finset.mem_map.mpr ⟨ix2 ⟨(i 0).val % 10000, Nat.mod_lt _ (by decide)⟩ (i 1), Finset.mem_univ _,
    rect_emb_eq win4_3 ⟨_, hlt⟩ (idx_facts4 _).2.2.2 _ i (Fin.forall_fin_two.mpr ⟨Nat.div_add_mod' _ _, Nat.zero_add _⟩)⟩⟩

/-- The output array after the region: the reference's whole-array product of the arrays the region was entered with. -/
theorem arr4_eq (c : Dev nD) :
    (dat4 (F := Ideal) V c).arrAt 3 cfg4.N
      = Host.dotGeneral (F := Ideal) (φ₁ := .f32) (φ₂ := .f32) Cert.ReferenceIdeal.dot_S100000x32_S32x32_S100000x32_1_0_0_1_n_n none
          (mulf (F := Ideal) (φ := .f32) (V c main_v40)
            (broadcastInDim (α := Ideal .f32) S100000x32 ![0, 1] Cert.ReferenceIdeal.Facts₀.bcast_S100000x1_S100000x32_0_1 (V c main_v41)))
          (V c main_arg8) :=
  (dat4 V c).arrAt_eq_of_cover 3 _ (fun t _ => flushed4_eq V c t) cover4

end Cert.KernelIdeal.Val

end
-- ==== Proof.Val.F5v.lean ====
import proofs.«424855_j19189913879214_2_alg».proof.Proof.KI.F5
import proofs.«424855_j19189913879214_2_alg».proof.Proof.Val.FMath
import proofs.«424855_j19189913879214_2_alg».proof.Proof.Val.RMath
import proofs.«424855_j19189913879214_2_alg».proof.Proof.Val.Blk

noncomputable section

namespace Cert.KernelIdeal.Val

open Cert.KernelIdeal Cert.KernelIdeal.Gen Cert.KernelIdeal.Fr
open Idealize.ShloMosaic Idealize.ShloMosaic.TcCoe Idealize.ShloMosaic.ValueIdx

variable (V : (c : Dev nD) → (b : Ref sig .tc) → Buf (Elt Ideal) ((c : Thread nD τ).loc b))

/-- The whole-array result `max (A * rownorm + bias) 0` the reference computes from the three arrays. -/
abbrev relu5 (A : FVec Ideal S100000x32 .f32) (N1 : FVec Ideal S100000x1 .f32) (B1 : FVec Ideal S1x32 .f32) :
    FVec Ideal S100000x32 .f32 :=
  maximumf (addf (mulf A (broadcastInDim S100000x32 ![0, 1] Cert.ReferenceIdeal.Facts₀.bcast_S100000x1_S100000x32_0_1 N1))
      (broadcastInDim S100000x32 ![0, 1] Cert.ReferenceIdeal.Facts₀.bcast_S1x32_S100000x32_0_1 B1))
    (broadcastInDim S100000x32 ![] Cert.ReferenceIdeal.Facts₀.bcast_S_S100000x32 (constant (F := Ideal) S_ .f32 0x00000000#32))

/-- The windows' block indices at point `t`, decided over the grid. -/
theorem idx_facts5 : ∀ t : Fin cfg5.N, win5_0.index t = ![t.val, 0] ∧ win5_1.index t = ![t.val, 0]
    ∧ win5_2.index t = ![0, 0] ∧ win5_3.index t = ![t.val, 0] :=
  (by decide +kernel : ∀ t : Fin grid5.N, _)

/-- Row `r` of block `t` is row `10000 t + r` of each row-blocked array, and the result is computed entry by entry. -/
theorem flushed5_eq (c : Dev nD) (t : Fin cfg5.N) :
    (dat5 V c).flushed 3 t
      = ((cfg5.win 3).blk t).view.read (Elt Ideal) (relu5 (V c main_v52) (V c main_v53) (V c main_v54)) := by
  obtain ⟨e0, e1, e2, e3⟩ := idx_facts5 t
  show (cfg5.win 3).cut (grid5.coords t) ((dat5 V c).after 3 t) = _
  rw [after5_3]
  unfold out5_3
  rw [View.canon_unit_zero zero_off, View.ld_unit_zero zero_off, View.ld_unit_zero zero_off, View.ld_unit_zero zero_off]
  refine funext fun (y : S10000x32.Idx) => ?_
  obtain ⟨r, j, rfl⟩ : ∃ (r : Fin 10000) (j : Fin 32), y = ix2 r j := ⟨y 0, y 1, eq_ix2 y⟩
  have hi : t.val * 10000 + r.val < 100000 := by have := lt_of_lt_of_eq t.isLt N_5; omega
  show k5_pay1 _ _ _ (ix2 r j) = relu5 _ _ _ ((win5_3.rect t).emb (ix2 r j))
  rw [rect_emb_eq win5_3 t e3 (ix2 r j) (ix2 ⟨_, hi⟩ j) (Fin.forall_fin_two.mpr ⟨rfl, Nat.zero_add _⟩), k5_pay1_apply]
  refine Eq.trans ?_ (Cert.ReferenceIdeal.Val.finalize_apply _ _ _ _ j).symm
  exact congrArg (max · 0) (congrArg₂ (· + ·) (congrArg₂ (· * ·)
      (congrArg (V c main_v52) (rect_emb_eq win5_0 t e0 (ix2 r j) (ix2 ⟨_, hi⟩ j) (Fin.forall_fin_two.mpr ⟨rfl, Nat.zero_add _⟩)))
      (congrArg (V c main_v53) (rect_emb_eq win5_1 t e1 (ix2 r 0) (ix2 ⟨_, hi⟩ 0) (Fin.forall_fin_two.mpr ⟨rfl, Nat.zero_add _⟩))))
    (congrArg (V c main_v54) (rect_emb_eq win5_2 t e2 (ix2 0 j) (ix2 0 j) (Fin.forall_fin_two.mpr ⟨Nat.zero_add _, Nat.zero_add _⟩))))

/-- Row `i` of the output array is row `i % 10000` of the block of point `i / 10000`. -/
theorem cover5 (i : S100000x32.Idx) :
    ∃ t : Fin cfg5.N, (cfg5.win 3).flush t = true ∧ i ∈ ((cfg5.win 3).blk t).view.set :=
  have hlt : (i 0).val / 10000 < grid5.N := lt_of_lt_of_eq (Nat.div_lt_of_lt_mul (i 0).isLt) N_5.symm
  ⟨⟨_, hlt⟩, flush5_3 _, Finset.mem_map.mpr ⟨ix2 ⟨(i 0).val % 10000, Nat.mod_lt _ (by decide)⟩ (i 1), Finset.mem_univ _,
    rect_emb_eq win5_3 ⟨_, hlt⟩ (idx_facts5 _).2.2.2 _ i (Fin.forall_fin_two.mpr ⟨Nat.div_add_mod' _ _, Nat.zero_add _⟩)⟩⟩

/-- The output array after the region: the reference's whole-array result of the arrays the region was entered with. -/
theorem arr5_eq (c : Dev nD) :
    (dat5 (F := Ideal) V c).arrAt 3 cfg5.N
      = maximumf (F := Ideal) (φ := .f32)
          (addf (F := Ideal) (φ := .f32)
            (mulf (F := Ideal) (φ := .f32) (V c main_v52)
              (broadcastInDim (α := Ideal .f32) S100000x32 ![0, 1] Cert.ReferenceIdeal.Facts₀.bcast_S100000x1_S100000x32_0_1 (V c main_v53)))
            (broadcastInDim (α := Ideal .f32) S100000x32 ![0, 1] Cert.ReferenceIdeal.Facts₀.bcast_S1x32_S100000x32_0_1 (V c main_v54)))
          (broadcastInDim S100000x32 ![] Cert.ReferenceIdeal.Facts₀.bcast_S_S100000x32 (constant (F := Ideal) S_ .f32 0x00000000#32)) :=
  (dat5 V c).arrAt_eq_of_cover 3 _ (fun t _ => flushed5_eq V c t) cover5

end Cert.KernelIdeal.Val

end
-- ==== Proof.Val.PoolKer.lean ====
import proofs.«424855_j19189913879214_2_alg».proof.Proof.KI.PoolRec
import proofs.«424855_j19189913879214_2_alg».proof.Proof.Val.PoolSpec
import proofs.«424855_j19189913879214_2_alg».proof.Proof.Val.TMath
import Idealize.ShloMosaic.Lib.ValueLayout
import Idealize.ShloMosaic.Lib.StackMember

noncomputable section

namespace Cert.KernelIdeal.Val

open Idealize.ShloMosaic Idealize.ShloMosaic.ValueIdx Cert.KernelIdeal Cert.KernelIdeal.Gen Cert.KernelIdeal.Fr
open Cert.Pool
open scoped BigOperators

/-- The equality bit of a word with a graph number, widened and converted, is 1 or 0 as an extended real. -/
theorem word_ind (w : BitVec 32) (g : Fin 64) :
    ((((IntOp.cmpi .eq w (BitVec.ofNat 32 g.val)).setWidth 32).toInt : ℝ) : EReal) = ind w g := by
  rw [toInt_setWidth_bit]
  by_cases h : w = BitVec.ofNat 32 g.val <;> simp [ind, IntOp.cmpi, h]

/-- An m×k by k×n product accumulated into zero is, at (a, b), the sum over c of x(a, c) · y(c, b). -/
theorem matmul0_apply {m k n : Nat} {φ₁ φ₂ : FTy} (x : FVec Ideal ⟨2, ![m, k]⟩ φ₁) (y : FVec Ideal ⟨2, ![k, n]⟩ φ₂)
    (a : Fin m) (b : Fin n) :
    matmul (DotDims.plain m k n) none x y (constant _ .f32 0x00000000#32) (ix2 a b) = ∑ c : Fin k, x (ix2 a c) * y (ix2 c b) :=
  (congrFun (matmul_zero_eq_dotGeneral _ none x y) _).trans (StackMember.dotGeneral_plain_apply none x y a b)

/-- The one-hot block holds, at (r, g), whether row r's graph id is g. -/
theorem pay3_apply (gb : Vec Ideal S10000x1 .i32) (r : Fin 10000) (g : Fin 64) :
    k6_pay3 (F := Ideal) gb (ix2 r g) = ind (gb (ix2 r (0 : Fin 1))) g := by
  unfold k6_pay3
  simp only [shapeCast_self]
  show ((((IntOp.cmpi .eq (broadcastTo _ gb _ (ix2 r g)) (iota _ _ _ _ _ (ix2 r g))).setWidth 32).toInt : ℝ) : EReal) = _
  rw [broadcastTo_a1_ab_apply, iota_single_apply]
  exact word_ind _ _

/-- A block adds to the feature sums, at (h, g), its rows' feature h over the rows of graph g. -/
theorem pay4_apply (gb : Vec Ideal S10000x1 .i32) (xb : Vec Ideal S10000x32 .f32) (acc : Vec Ideal S32x64 .f32)
    (h : Fin 32) (g : Fin 64) :
    k6_pay4 (F := Ideal) gb xb acc (ix2 h g)
      = acc (ix2 h g) + ∑ r : Fin 10000, xb (ix2 r h) * ind (gb (ix2 r (0 : Fin 1))) g := by
  unfold k6_pay4
  simp only [shapeCast_self]
  rw [addf_apply]
  refine congrArg (acc (ix2 h g) + ·) ((matmul0_apply _ _ h g).trans (Finset.sum_congr rfl fun r _ => ?_))
  rw [pay3_apply]
  exact congrArg (· * _) (transpose_ix2_apply xb transposes_S10000x32_p1_0_S32x10000 h r)

/-- A block adds to the counts, at g, how many of its rows are of graph g (the left factor is all ones). -/
theorem pay5_apply (gb : Vec Ideal S10000x1 .i32) (cnt : Vec Ideal S1x64 .f32) (g : Fin 64) :
    k6_pay5 (F := Ideal) gb cnt (ix2 (0 : Fin 1) g)
      = cnt (ix2 (0 : Fin 1) g) + ∑ r : Fin 10000, ind (gb (ix2 r (0 : Fin 1))) g := by
  unfold k6_pay5
  simp only [shapeCast_self]
  rw [addf_apply]
  refine congrArg (cnt (ix2 (0 : Fin 1) g) + ·) ((matmul0_apply _ _ 0 g).trans (Finset.sum_congr rfl fun r _ => ?_))
  rw [pay3_apply]
  exact (congrArg (· * _) (IdealRules.sign_bit.ideal_onePat .bf16)).trans (one_mul _)

/-- The output at (g, e): the sums over the counts clipped at one, through the embedding matrix, plus the bias. -/
theorem pay6_apply (cnt : Vec Ideal S1x64 .f32) (acc : Vec Ideal S32x64 .f32) (we : Vec Ideal S32x16 .f32)
    (be : Vec Ideal S1x16 .f32) (g : Fin 64) (e : Fin 16) :
    k6_pay6 (F := Ideal) cnt acc we be (ix2 g e)
      = (∑ h : Fin 32, we (ix2 h e) * Ideal.div (acc (ix2 h g)) (max (cnt (ix2 (0 : Fin 1) g)) 1))
        + be (ix2 (0 : Fin 1) e) := by
  unfold k6_pay6
  simp only [shapeCast_self]
  refine (transpose_ix2_apply _ transposes_S16x64_p1_0_S64x16 g e).trans ?_
  rw [addf_apply]
  refine congrArg₂ (· + ·) ((matmul0_apply _ _ e g).trans (Finset.sum_congr rfl fun h _ => ?_)) ?_
  · refine congrArg₂ (· * ·) (transpose_ix2_apply we transposes_S32x16_p1_0_S16x32 e h) ?_
    refine congrArg (Ideal.div (acc (ix2 h g))) ((broadcastTo_1b_ab_apply _ broadcasts_S1x64_S32x64 h g).trans ?_)
    exact congrArg (max (cnt _)) (IdealRules.sign_bit.ideal_onePat .f32)
  · exact (broadcastTo_a1_ab_apply _ broadcasts_S16x1_S16x64 e g).trans (transpose_ix2_apply be transposes_S1x16_p1_0_S16x1 e 0)

theorem pay1_apply (i : S32x64.Idx) : k6_pay1 (F := Ideal) i = 0 := Ideal.ofBits_zero_f32
theorem pay2_apply (i : S1x64.Idx) : k6_pay2 (F := Ideal) i = 0 := Ideal.ofBits_zero_f32

/-- By induction on the blocks: the feature sums after block n are the sum of the first n + 1 additions. -/
theorem accRec_apply (gb : Nat → Vec Ideal S10000x1 .i32) (xb : Nat → Vec Ideal S10000x32 .f32) (h : Fin 32) (g : Fin 64)
    (n : Nat) :
    accRec (F := Ideal) gb xb n (ix2 h g)
      = ∑ t ∈ Finset.range (n + 1), ∑ r : Fin 10000, xb t (ix2 r h) * ind (gb t (ix2 r (0 : Fin 1))) g := by
  induction n with
  | zero => exact (pay4_apply _ _ _ h g).trans (by rw [pay1_apply, zero_add, Finset.sum_range_one])
  | succ n ih => exact (pay4_apply _ _ _ h g).trans (by rw [ih, Finset.sum_range_succ _ (n + 1)])

/-- The same induction for the counts. -/
theorem cntRec_apply (gb : Nat → Vec Ideal S10000x1 .i32) (g : Fin 64) (n : Nat) :
    cntRec (F := Ideal) gb n (ix2 (0 : Fin 1) g)
      = ∑ t ∈ Finset.range (n + 1), ∑ r : Fin 10000, ind (gb t (ix2 r (0 : Fin 1))) g := by
  induction n with
  | zero => exact (pay5_apply _ _ g).trans (by rw [pay2_apply, zero_add, Finset.sum_range_one])
  | succ n ih => exact (pay5_apply _ _ g).trans (by rw [ih, Finset.sum_range_succ _ (n + 1)])

/-- Ten blocks of 10000 consecutive nodes regroup the sums over all nodes, so the output is the pooled value. -/
theorem poolOut_eq_poolAt (X : Vec Ideal S100000x32 .f32) (G : Vec Ideal S100000x1 .i32)
    (We : Vec Ideal S32x16 .f32) (B1 : Vec Ideal S1x16 .f32)
    (gb : Nat → Vec Ideal S10000x1 .i32) (xb : Nat → Vec Ideal S10000x32 .f32)
    (hx : ∀ (t : Fin 10) (r : Fin 10000) (h : Fin 32), xb t.val (ix2 r h) = X (ix2 (node t r) h))
    (hg : ∀ (t : Fin 10) (r : Fin 10000), gb t.val (ix2 r (0 : Fin 1)) = G (ix2 (node t r) (0 : Fin 1)))
    (g : Fin 64) (e : Fin 16) :
    poolOut (F := Ideal) gb xb We B1 (ix2 g e) = poolAt X G We B1 g e := by
  unfold poolOut poolAt
  rw [pay6_apply, cntRec_apply gb g 9, nodeCnt_blocks G gb hg g]
  refine congrArg (· + B1 (ix2 (0 : Fin 1) e)) (Finset.sum_congr rfl fun h _ => ?_)
  rw [accRec_apply gb xb h g 9, nodeSum_blocks X G xb gb hx hg h g]

end Cert.KernelIdeal.Val

end
-- ==== Proof.Val.PoolMath.lean ====
import proofs.«424855_j19189913879214_2_alg».proof.Proof.Val.PoolKer
import proofs.«424855_j19189913879214_2_alg».proof.Proof.Val.PoolRef

noncomputable section

namespace Cert.KernelIdeal.Val

open Idealize.ShloMosaic Idealize.ShloMosaic.ValueIdx Cert.KernelIdeal Cert.KernelIdeal.Gen Cert.KernelIdeal.Fr
open Cert.Pool

/-- Fed the ten runs of 10000 consecutive rows, the last point stores what the reference pools from the whole arrays: both are the pooled specification. -/
theorem poolOut_eq_RefPool (X : Vec Ideal S100000x32 .f32) (G : Vec Ideal S100000x1 .i32)
    (We : Vec Ideal S32x16 .f32) (B1 : Vec Ideal S1x16 .f32)
    (gb : Nat → Vec Ideal S10000x1 .i32) (xb : Nat → Vec Ideal S10000x32 .f32)
    (hx : ∀ (t : Fin 10) (r : Fin 10000) (h : Fin 32), xb t.val (ix2 r h) = X (ix2 (node t r) h))
    (hg : ∀ (t : Fin 10) (r : Fin 10000), gb t.val (ix2 r (0 : Fin 1)) = G (ix2 (node t r) (0 : Fin 1))) :
    poolOut (F := Ideal) gb xb We B1 = Cert.ReferenceIdeal.Pool.RefPool (F := Ideal) X G We B1 := by
  refine funext fun (i : S64x16.Idx) => ?_
  obtain ⟨g, e, rfl⟩ : ∃ (g : Fin 64) (e : Fin 16), i = ix2 g e := ⟨i 0, i 1, eq_ix2 i⟩
  rw [poolOut_eq_poolAt X G We B1 gb xb hx hg g e]
  exact (Cert.ReferenceIdeal.Pool.RefPool_apply X G We B1 g e).symm

end Cert.KernelIdeal.Val

end
-- ==== Proof.Val.P6v.lean ====
import proofs.«424855_j19189913879214_2_alg».proof.Proof.KI.P6
import proofs.«424855_j19189913879214_2_alg».proof.Proof.Val.PoolMath
import proofs.«424855_j19189913879214_2_alg».proof.Proof.Val.Blk

noncomputable section

namespace Cert.KernelIdeal.Val

open Cert.KernelIdeal Cert.KernelIdeal.Gen Cert.KernelIdeal.Fr
open Idealize.ShloMosaic Idealize.ShloMosaic.TcCoe Idealize.ShloMosaic.ValueIdx
open Cert.Pool

variable (V : (c : Dev nD) → (b : Ref sig .tc) → Buf (Elt Ideal) ((c : Thread nD τ).loc b))

/-- The windows' block indices at point `t`, decided over the grid. -/
theorem idx_facts6 : ∀ t : Fin cfg6.N, win6_0.index t = ![t.val, 0] ∧ win6_1.index t = ![t.val, 0]
    ∧ win6_2.index t = ![0, 0] ∧ win6_3.index t = ![0, 0] ∧ win6_4.index t = ![0, 0] :=
  (by decide +kernel : ∀ t : Fin grid6.N, _)

/-- The ten points are handed the ten runs of 10000 consecutive rows, and every point's output block is the whole result. -/
theorem flushed6_eq (c : Dev nD) (t : Fin cfg6.N) :
    (dat6 V c).flushed 4 t
      = ((cfg6.win 4).blk t).view.read (Elt Ideal) (Cert.ReferenceIdeal.Pool.RefPool (F := Ideal) (V c main_v55) (V c main_v56) (V c main_arg10) (V c main_v57)) := by
  obtain ⟨-, -, e2, e3, e4⟩ := idx_facts6 t
  have hN (s : Fin 10) : s.val < cfg6.N := lt_of_lt_of_eq s.isLt N_6.symm
  show (cfg6.win 4).cut (grid6.coords t) ((dat6 V c).after 4 t) = _
  rw [after6_4]
  refine funext fun (y : S64x16.Idx) => ?_
  show poolOut _ _ (iblk6 V c 2 t) (iblk6 V c 3 t) y = Cert.ReferenceIdeal.Pool.RefPool _ _ _ _ ((win6_4.rect t).emb y)
  rw [rect_emb_eq win6_4 t e4 y y (Fin.forall_fin_two.mpr ⟨Nat.zero_add _, Nat.zero_add _⟩),
    show (iblk6 V c 2 t : Vec Ideal S32x16 .f32) = V c main_arg10 from funext fun x =>
      congrArg (V c main_arg10) (rect_emb_eq win6_2 t e2 x x (Fin.forall_fin_two.mpr ⟨Nat.zero_add _, Nat.zero_add _⟩)),
    show (iblk6 V c 3 t : Vec Ideal S1x16 .f32) = V c main_v57 from funext fun x =>
      congrArg (V c main_v57) (rect_emb_eq win6_3 t e3 x x (Fin.forall_fin_two.mpr ⟨Nat.zero_add _, Nat.zero_add _⟩))]
  exact congrFun (poolOut_eq_RefPool _ _ _ _ _ _
    (fun s r h => (congrFun (xblk6_val V c ⟨_, hN s⟩) _).trans (congrArg (V c main_v55) (rect_emb_eq win6_0 ⟨_, hN s⟩ (idx_facts6 _).1
      (ix2 r h) (ix2 (node s r) h) (Fin.forall_fin_two.mpr ⟨congrArg (· + r.val) (Nat.mul_comm _ _), Nat.zero_add _⟩))))
    (fun s r => (congrFun (gblk6_val V c ⟨_, hN s⟩) _).trans (congrArg (V c main_v56) (rect_emb_eq win6_1 ⟨_, hN s⟩ (idx_facts6 _).2.1
      (ix2 r 0) (ix2 (node s r) 0) (Fin.forall_fin_two.mpr ⟨congrArg (· + r.val) (Nat.mul_comm _ _), Nat.zero_add _⟩))))) y

/-- Every index of the output array lies in the one block, which the last point writes back. -/
theorem cover6 (i : S64x16.Idx) :
    ∃ t : Fin cfg6.N, (cfg6.win 4).flush t = true ∧ i ∈ ((cfg6.win 4).blk t).view.set :=
  ⟨t6_9, (flush6_4 t6_9).mpr rfl, Finset.mem_map.mpr ⟨i, Finset.mem_univ _,
    rect_emb_eq win6_4 t6_9 (idx_facts6 _).2.2.2.2 i i (Fin.forall_fin_two.mpr ⟨Nat.zero_add _, Nat.zero_add _⟩)⟩⟩

/-- The output array after the region: the reference's pooling tail of the arrays the region was entered with. -/
theorem arr6_eq (c : Dev nD) :
    (dat6 (F := Ideal) V c).arrAt 4 cfg6.N = Cert.ReferenceIdeal.Pool.RefPool (F := Ideal) (V c main_v55) (V c main_v56) (V c main_arg10) (V c main_v57) :=
  (dat6 V c).arrAt_eq_of_cover 4 _ (fun t _ => flushed6_eq V c t) cover6

end Cert.KernelIdeal.Val

end
-- ==== Proof.Val.RefRes.lean ====
import proofs.«424855_j19189913879214_2_alg».proof.Proof.Gen.ReferenceIdeal.Run
import proofs.«424855_j19189913879214_2_alg».proof.Proof.Val.RefFn

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

/-- The term the reference's run states for its result is the network of stages applied to the argument arrays. -/
theorem res_eq (m : (ℓ : Loc nD τ sig) → Buf (Elt F) ℓ) (c : Dev nD) :
    Cert.ReferenceIdeal.Value.res_main_v88 (F := F) m c
      = netR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  unfold Cert.ReferenceIdeal.Value.res_main_v88; rfl

end Cert.ReferenceIdeal.Val

end
-- ==== Proof.Val.Final.lean ====
import proofs.«424855_j19189913879214_2_alg».proof.Proof.KI.Fold
import proofs.«424855_j19189913879214_2_alg».proof.Proof.Val.Glue
import proofs.«424855_j19189913879214_2_alg».proof.Proof.Val.Stretch
import proofs.«424855_j19189913879214_2_alg».proof.Proof.Val.T0v
import proofs.«424855_j19189913879214_2_alg».proof.Proof.Val.F1v
import proofs.«424855_j19189913879214_2_alg».proof.Proof.Val.T2v
import proofs.«424855_j19189913879214_2_alg».proof.Proof.Val.F3v
import proofs.«424855_j19189913879214_2_alg».proof.Proof.Val.T4v
import proofs.«424855_j19189913879214_2_alg».proof.Proof.Val.F5v
import proofs.«424855_j19189913879214_2_alg».proof.Proof.Val.P6v
import proofs.«424855_j19189913879214_2_alg».proof.Proof.Val.RefRes

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.StableHlo (after)
open Cert.ReferenceIdeal.Val (xform1R' xformR')

variable (m : (ℓ : Loc nD τ sig) → Buf (Elt Ideal) ℓ) (c : Dev nD)

/-- A launch argument array. -/
abbrev arg (r : Ref sig .tc) := W0 m c (Proc.devRef .tc r)

/-- Both degree scales and the three layers' rows, as functions of the launch arguments. -/
abbrev dOut := invSqrtDegK (arg m c main_arg1)
abbrev dIn := invSqrtDegK (arg m c main_arg2)
abbrev y1 :=
  layer1K (arg m c main_arg0) (arg m c main_arg4) (arg m c main_arg5) (arg m c main_arg1) (arg m c main_arg2) (dOut m c) (dIn m c)
abbrev y2 :=
  layerK (y1 m c) (arg m c main_arg6) (arg m c main_arg7) (arg m c main_arg1) (arg m c main_arg2) (dOut m c) (dIn m c)
abbrev y3 :=
  layerK (y2 m c) (arg m c main_arg8) (arg m c main_arg9) (arg m c main_arg1) (arg m c main_arg2) (dOut m c) (dIn m c)

/-- The stretches before the first region leave both degree scales, the first also as a column. -/
theorem E5_v9 : W5 m c (Proc.devRef .tc main_v9) = dOut m c := pre_v9 (W0 m c)
theorem E5_v10 : W5 m c (Proc.devRef .tc main_v10) = dIn m c := pre_v10 (W0 m c)
theorem E5_v11 : W5 m c (Proc.devRef .tc main_v11) = colK (dOut m c) := pre_v11 (W0 m c)

/-- A region's output is its stage applied to its input arrays; each input is traced back to the launch arguments. -/
theorem E6_v12 : W6 m c (Proc.devRef .tc main_v12) = xform1R' (arg m c main_arg0) (colK (dOut m c)) (arg m c main_arg4) :=
  ((W6_arr m c 3).trans (arr0_eq (fun c b => W5 m c b) c)).trans (by rw [W5_arg0, E5_v11, W5_arg4]; rfl)

theorem E8_v25 : W8 m c (Proc.devRef .tc main_v25) = y1 m c :=
  ((W8_arr m c 3).trans (arr1_eq (fun c b => after hostOps1 (W6 m c) b) c)).trans (by
    rw [hostOps1_v22, hostOps1_v23, hostOps1_v24, E6_v12, W6_arg1, W6_arg2, W6_v10, E5_v10, W6_arg5]; rfl)

theorem E9_v26 : W9 m c (Proc.devRef .tc main_v26) = colK (dOut m c) :=
  (hostOps2_v26 (W8 m c)).trans (by rw [W8_v9, E5_v9])

theorem E10_v27 : W10 m c (Proc.devRef .tc main_v27) = xformR' (y1 m c) (colK (dOut m c)) (arg m c main_arg6) :=
  ((W10_arr m c 3).trans (arr2_eq (fun c b => W9 m c b) c)).trans (by rw [W9_v25, E8_v25, E9_v26, W9_arg6]; rfl)

theorem E12_v40 : W12 m c (Proc.devRef .tc main_v40) = y2 m c :=
  ((W12_arr m c 3).trans (arr3_eq (fun c b => after hostOps3 (W10 m c) b) c)).trans (by
    rw [hostOps3_v37, hostOps3_v38, hostOps3_v39, E10_v27, W10_arg1, W10_arg2, W10_v10, E5_v10, W10_arg7]; rfl)

theorem E13_v41 : W13 m c (Proc.devRef .tc main_v41) = colK (dOut m c) :=
  (hostOps4_v41 (W12 m c)).trans (by rw [W12_v9, E5_v9])

theorem E14_v42 : W14 m c (Proc.devRef .tc main_v42) = xformR' (y2 m c) (colK (dOut m c)) (arg m c main_arg8) :=
  ((W14_arr m c 3).trans (arr4_eq (fun c b => W13 m c b) c)).trans (by rw [W13_v40, E12_v40, E13_v41, W13_arg8]; rfl)

theorem E16_v55 : W16 m c (Proc.devRef .tc main_v55) = y3 m c :=
  ((W16_arr m c 3).trans (arr5_eq (fun c b => after hostOps5 (W14 m c) b) c)).trans (by
    rw [hostOps5_v52, hostOps5_v53, hostOps5_v54, E14_v42, W14_arg1, W14_arg2, W14_v10, E5_v10, W14_arg9]; rfl)

theorem E17_v56 : W17 m c (Proc.devRef .tc main_v56) = colK (arg m c main_arg3) :=
  (hostOps6_v56 (W16 m c)).trans (by rw [W16_arg3])
theorem E17_v57 : W17 m c (Proc.devRef .tc main_v57) = row16K (arg m c main_arg11) :=
  (hostOps6_v57 (W16 m c)).trans (by rw [W16_arg11])

/-- Composing the seven stages: the last output is the whole network applied to the launch arguments. -/
theorem E18_v58 : W18 m c (Proc.devRef .tc main_v58)
    = netK (arg m c main_arg0) (arg m c main_arg1) (arg m c main_arg2) (arg m c main_arg3) (arg m c main_arg4) (arg m c main_arg5)
        (arg m c main_arg6) (arg m c main_arg7) (arg m c main_arg8) (arg m c main_arg9) (arg m c main_arg10) (arg m c main_arg11) :=
  ((W18_arr m c 4).trans (arr6_eq (fun c b => W17 m c b) c)).trans (by rw [W17_v55, E16_v55, E17_v56, W17_arg10, E17_v57]; rfl)

/-- The network is the reference's own function, so equal arguments give the reference's result. -/
theorem final_eq (m' : (ℓ : Loc Cert.ReferenceIdeal.nD Cert.ReferenceIdeal.τ Cert.ReferenceIdeal.sig) → Buf (Elt Ideal) ℓ)
    (hagree :
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)) :
    W18 m c (Proc.devRef .tc main_v58) = Cert.ReferenceIdeal.Value.res_main_v88 (F := Ideal) m' c := by
  obtain ⟨h0, h1, h2, h3, h4, h5, h6, h7, h8, h9, h10, h11⟩ := hagree
  rw [E18_v58 m c, netK_eq, Cert.ReferenceIdeal.Val.res_eq m' c, h0, h1, h2, h3, h4, h5, h6, h7, h8, h9, h10, h11]

end Cert.KernelIdeal.Val

end
-- ==== Proof.lean ====
import proofs.«424855_j19189913879214_2_alg».proof.Defs
import proofs.«424855_j19189913879214_2_alg».proof.Proof.Gen.Kernel
import proofs.«424855_j19189913879214_2_alg».proof.Proof.Gen.KernelIdeal
import proofs.«424855_j19189913879214_2_alg».proof.Proof.Gen.ReferenceIdeal
import proofs.«424855_j19189913879214_2_alg».proof.Proof.Gen.Pre_finite_inputs
import proofs.«424855_j19189913879214_2_alg».proof.Proof.Gen.ReferenceIdeal.Run
import proofs.«424855_j19189913879214_2_alg».proof.Proof.K.Run
import proofs.«424855_j19189913879214_2_alg».proof.Proof.KI.Run
import proofs.«424855_j19189913879214_2_alg».proof.Proof.Val.Final
import Idealize.ShloMosaic.Adequacy
import Idealize.ShloMosaic.Init

noncomputable section

namespace Cert.Proof

open Idealize.ShloMosaic Idealize.ShloMosaic.TcCoe Idealize.SL.Sem

/-- The word-level program runs to the end, faultless, with its arguments as launched: the run, read at the arguments. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Fr.run_res (F := Bits) m ρ)

theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Fr.run_res (F := Ideal) m ρ)

/-- The reference is host operations only: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the same result: the kernel program's last boundary contents are the reference's composed term. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m ρ m' ρ' _ hagree => ⟨_, Cert.KernelIdeal.Fr.run_res (F := Ideal) m ρ,
    (θ_run Cert.ReferenceIdeal.defs _ _).mono (fun _ h c =>
      ⟨(h c).1.trans (Cert.KernelIdeal.Val.final_eq m c m' (hagree c)).symm, (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
